-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S256x1024 : Shape := ⟨2, ![256, 1024]⟩
abbrev S256 : Shape := ⟨1, ![256]⟩
abbrev S64x256 : Shape := ⟨2, ![64, 256]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : IVec S8192 32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .sge main_arg4 main_v19
  let main_c_7 : IVec S_ 32 := constantI S_ 32 64#32
  let main_v21 : IVec S8192 32 := broadcastInDim S8192 ![] bcast_S_S8192 main_c_7
  let main_v22 : IVec S8192 1 := cmpi .slt main_arg4 main_v21
  let main_v23 : IVec S8192 1 := andi main_v20 main_v22
  let main_c_8 : IVec S_ 1 := constantI S_ 1 1#1
  let main_v24 : IVec S_ 1 := (fun x v => Host.reduce IntOp.andi x v reducesTo_S8192_S_d0 h_S_) main_v23 main_c_8
  let main_v25 : IVec S_ 1 := andi main_v18 main_v24
  main_v25

def fn {F : FTy → Type} [FloatOps F] (main_arg0 : FVec F S8192x1024 .f32) (main_arg1 : FVec F S256x1024 .f32) (main_arg2 : FVec F S256 .f32) (main_arg3 : FVec F S64x256 .f32) (main_arg4 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_v13 main_v16
-- ==== Kernel.lean ====
abbrev S8192x1024 : Shape := ⟨2, ![8192, 1024]⟩
abbrev S256x1024 : Shape := ⟨2, ![256, 1024]⟩
abbrev S256 : Shape := ⟨1, ![256]⟩
abbrev S64x256 : Shape := ⟨2, ![64, 256]⟩
abbrev S8192 : Shape := ⟨1, ![8192]⟩
abbrev S1x256 : Shape := ⟨2, ![1, 256]⟩
abbrev S8192x256 : Shape := ⟨2, ![8192, 256]⟩
abbrev S1024x1024 : Shape := ⟨2, ![1024, 1024]⟩
abbrev S1024x256 : Shape := ⟨2, ![1024, 256]⟩
abbrev S1024 : Shape := ⟨1, ![1024]⟩
abbrev S1024x1 : Shape := ⟨2, ![1024, 1]⟩
abbrev S_ : Shape := ⟨0, ![]⟩
abbrev S64 : Shape := ⟨1, ![64]⟩
abbrev S64x1 : Shape := ⟨2, ![64, 1]⟩
abbrev S8192x1 : Shape := ⟨2, ![8192, 1]⟩
abbrev S1x64 : Shape := ⟨2, ![1, 64]⟩
abbrev S8192x64 : Shape := ⟨2, ![8192, 64]⟩
abbrev S1x8192 : Shape := ⟨2, ![1, 8192]⟩
abbrev S1x1024 : Shape := ⟨2, ![1, 1024]⟩
abbrev S1024x64 : Shape := ⟨2, ![1024, 64]⟩

abbrev nBuf : Space → Nat
  | .hbm => 63
  | .vmem => 40
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S256, .f32⟩
  | .hbm, ⟨3, _⟩ => ⟨S64x256, .f32⟩
  | .hbm, ⟨4, _⟩ => ⟨S8192, .i32⟩
  | .hbm, ⟨5, _⟩ => ⟨S1x256, .f32⟩
  | .hbm, ⟨6, _⟩ => ⟨S8192x256, .bf16⟩
  | .hbm, ⟨7, _⟩ => ⟨S64x256, .f32⟩
  | .hbm, ⟨8, _⟩ => ⟨S_, .f32⟩
  | .hbm, ⟨9, _⟩ => ⟨S64, .f32⟩
  | .hbm, ⟨10, _⟩ => ⟨S64x1, .f32⟩
  | .hbm, ⟨11, _⟩ => ⟨S64x1, .f32⟩
  | .hbm, ⟨12, _⟩ => ⟨S_, .f32⟩
  | .hbm, ⟨13, _⟩ => ⟨S64x1, .f32⟩
  | .hbm, ⟨14, _⟩ => ⟨S64x1, .f32⟩
  | .hbm, ⟨15, _⟩ => ⟨S64x256, .f32⟩
  | .hbm, ⟨16, _⟩ => ⟨S64x256, .f32⟩
  | .hbm, ⟨17, _⟩ => ⟨S8192x1, .i32⟩
  | .hbm, ⟨18, _⟩ => ⟨S1x64, .i32⟩
  | .hbm, ⟨19, _⟩ => ⟨S8192x64, .i32⟩
  | .hbm, ⟨20, _⟩ => ⟨S8192x64, .i32⟩
  | .hbm, ⟨21, _⟩ => ⟨S8192x64, .i1⟩
  | .hbm, ⟨22, _⟩ => ⟨S8192x64, .f32⟩
  | .hbm, ⟨23, _⟩ => ⟨S_, .f32⟩
  | .hbm, ⟨24, _⟩ => ⟨S64, .f32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S8192x1, .i32⟩
  | .hbm, ⟨39, _⟩ => ⟨S1x8192, .i32⟩
  | .hbm, ⟨40, _⟩ => ⟨S8192x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1x64, .f32⟩
  | .hbm, ⟨46, _⟩ => ⟨S1x64, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S256x1024, .f32⟩
  | .local _ .vmem, ⟨3, _⟩ => ⟨S1x256, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x1, .i32⟩
  | .local _ .vmem, ⟨11, _⟩ => ⟨S1024x1, .i32⟩
  | .local _ .vmem, ⟨12, _⟩ => ⟨S1x1024, .i32⟩
  | .local _ .vmem, ⟨13, _⟩ => ⟨S1x1024, .i32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x256, .bf16⟩
  | .local _ .vmem, ⟨21, _⟩ => ⟨S1024x256, .bf16⟩
  | .local _ .vmem, ⟨22, _⟩ => ⟨S64x256, .f32⟩
  | .local _ .vmem, ⟨23, _⟩ => ⟨S1024x1, .i32⟩
  | .local _ .vmem, ⟨24, _⟩ => ⟨S1024x1, .i32⟩
  | .local _ .vmem, ⟨25, _⟩ => ⟨S1x64, .f32⟩
  | .local _ .vmem, ⟨26, _⟩ => ⟨S1x64, .f32⟩
  | .local _ .vmem, ⟨27, _⟩ => ⟨S1024x1, .f32⟩
  | .local _ .vmem, ⟨28, _⟩ => ⟨S1024x1, .f32⟩
  | .local _ .vmem, ⟨29, _⟩ => ⟨S1x64, .f32⟩
  | .local _ .vmem, ⟨30, _⟩ => ⟨S1x64, .f32⟩
  | .local _ .vmem, ⟨31, _⟩ => ⟨S1024x256, .bf16⟩
  | .local _ .vmem, ⟨32, _⟩ => ⟨S1024x256, .bf16⟩
  | .local _ .vmem, ⟨33, _⟩ => ⟨S64x256, .f32⟩
  | .local _ .vmem, ⟨34, _⟩ => ⟨S1024x1, .i32⟩
  | .local _ .vmem, ⟨35, _⟩ => ⟨S1024x1, .i32⟩
  | .local _ .vmem, ⟨36, _⟩ => ⟨S1x64, .f32⟩
  | .local _ .vmem, ⟨37, _⟩ => ⟨S1x64, .f32⟩
  | .local _ .vmem, ⟨38, _⟩ => ⟨S1024x1, .f32⟩
  | .local _ .vmem, ⟨39, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24_0 : Ref sig .tc := ⟨.hbm, 45, rfl⟩
abbrev main_v24_1 : Ref sig .tc := ⟨.hbm, 46, rfl⟩
abbrev main_v24_2 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_cst_7 : Ref sig .tc := ⟨.hbm, 53, rfl⟩
abbrev main_v28 : Ref sig .tc := ⟨.hbm, 54, rfl⟩
abbrev main_cst_8 : Ref sig .tc := ⟨.hbm, 55, rfl⟩
abbrev main_v29 : Ref sig .tc := ⟨.hbm, 56, rfl⟩
abbrev main_cst_9 : Ref sig .tc := ⟨.hbm, 57, rfl⟩
abbrev main_v30 : Ref sig .tc := ⟨.hbm, 58, rfl⟩
abbrev main_v31 : Ref sig .tc := ⟨.hbm, 59, rfl⟩
abbrev main_cst_10 : Ref sig .tc := ⟨.hbm, 60, rfl⟩
abbrev main_v32 : Ref sig .tc := ⟨.hbm, 61, rfl⟩
abbrev main_v33 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_scratch0 : Ref sig .tc := ⟨.vmem, 29, rfl⟩
abbrev cc2_scratch1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 2, 8], ![false, false, false]⟩

def k1_cond5 (i : grid1.Coords) : BitVec 1 :=
  let arg1 : BitVec 32 := BitVec.ofNat 32 (i 1).val
  let c1_i32_15 : BitVec 32 := 1#32
  let v28 : BitVec 1 := Scalar.cmpi .eq arg1 c1_i32_15
  let arg2 : BitVec 32 := BitVec.ofNat 32 (i 2).val
  let c7_i32 : BitVec 32 := 7#32
  let v29 : BitVec 1 := Scalar.cmpi .eq arg2 c7_i32
  let v30 : BitVec 1 := Scalar.andi v28 v29
  let v31 : BitVec 32 := Scalar.extui v30
  let c0_i32_16 : BitVec 32 := 0#32
  let v32 : BitVec 1 := Scalar.cmpi .ne v31 c0_i32_16
  v32

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v46 : BitVec 1 := Scalar.cmpi .eq arg0 c7_i32
  let v47 : BitVec 32 := Scalar.extui v46
  let c0_i32_21 : BitVec 32 := 0#32
  let v48 : BitVec 1 := Scalar.cmpi .ne v47 c0_i32_21
  v48

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1024x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S256_S1x256 : S256.ShapeCasts S1x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  reducesTo_S64x256_S64_d1 : S64x256.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  reducesTo_S8192x64_S64_d0 : S8192x64.ReducesTo [0] S64
  bcast_S_S8192 : S_.BroadcastsInDim S8192 (![] : Fin 0 → Fin S8192.rank)
  shapeCasts_S8192_S8192x1 : S8192.ShapeCasts S8192x1
  shapeCasts_S8192_S1x8192 : S8192.ShapeCasts S1x8192
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  iota_S1024x1024_d0_w32 : S1024x1024.Iotas .tc 32 [0]
  iota_S1024x1024_d1_w32 : S1024x1024.Iotas .tc 32 [1]
  reducesTo_S8192x1_S_d0_1 : S8192x1.ReducesTo [0, 1] S_
  inb_S64x256_S64x256_0_0 : ∀ a, (![0, 0] : Fin 2 → Nat) a + S64x256.size a ≤ S64x256.size a
  h_S64x256 : 0 < S64x256.numel
  shapeCasts_S64x256_S64x256 : S64x256.ShapeCasts S64x256
  iota_S1024x64_d1_w32 : S1024x64.Iotas .tc 32 [1]
  broadcasts_S1024x1_S1024x64 : S1024x1.Broadcasts S1024x64
  natLt_1_32 : 1 < 32
  reduces_S1024x64_S1024 : S1024x64.Reduces [1] S1024
  reduces_S1024x64_S64 : S1024x64.Reduces [0] S64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  dot_S1024x1024_S256x1024_S1024x256_1_1_0_0_n_n_wf : DotDims.WF S1024x1024 S256x1024 S1024x256 [1] [1] [0] [0] [] []
  gather_S64_S8192x1_S8192_n_0_n_n_0_1_1_wf : GatherDims.WF S64 S8192x1 S8192 [] [0] [] [0] [] 1 ![1]
  dot_S1024x256_S1024x256_S1024x1024_1_1_0_0_n_n_wf : DotDims.WF S1024x256 S1024x256 S1024x1024 [1] [1] [0] [0] [] []
  dot_S1024x256_S64x256_S1024x64_1_1_0_0_n_n_wf : DotDims.WF S1024x256 S64x256 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .bf16 = 32 ∨ (Rect.block (s := S8192x256) S1024x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .i32 = 32 ∨ (Rect.block (s := S1x8192) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S8192x256.size a
  hwx2_0 : ∀ i : grid2.Coords, EltTy.bits .bf16 = 32 ∨ (Rect.block (s := S8192x256) S1024x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .f32 = 32 ∨ (Rect.block (s := S64x256) S64x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .i32 = 32 ∨ (Rect.block (s := S8192x1) S1024x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S8192x1.size a
  hwx2_5 : ∀ i : grid2.Coords, EltTy.bits .f32 = 32 ∨ (Rect.block (s := S8192x1) S1024x1.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S8192x256.size a
  hwx3_0 : ∀ i : grid3.Coords, EltTy.bits .bf16 = 32 ∨ (Rect.block (s := S8192x256) S1024x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x256.size a ≤ S64x256.size a
  hwx3_1 : ∀ i : grid3.Coords, EltTy.bits .f32 = 32 ∨ (Rect.block (s := S64x256) S64x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S8192x1.size a
  hwx3_2 : ∀ i : grid3.Coords, EltTy.bits .i32 = 32 ∨ (Rect.block (s := S8192x1) S1024x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x1.size a ≤ S8192x1.size a
  hwx3_5 : ∀ i : grid3.Coords, EltTy.bits .f32 = 32 ∨ (Rect.block (s := S8192x1) S1024x1.size (cc3_transform_5 i) (hinb3_5 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x256_S64x256_S1024x64_1_1_0_0_n_n : DotDims S1024x256 S64x256 S1024x64 where
  lhsContracting := [1]
  rhsContracting := [1]
  lhsNonContracting := [0]
  rhsNonContracting := [0]
  lhsBatch := []
  rhsBatch := []
  wf := dot_S1024x256_S64x256_S1024x64_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1024x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond5 i == 1#1) | ⟨_ + 6, h⟩ => absurd h (Nat.not_lt.2 (Nat.le_add_left _ _))

abbrev win2_0 : Pipeline.Window sig grid2 :=
  Pipeline.Window.ofSpec (Memref.whole main_v1) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v24_0) S1x64.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24_1) S1x64.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v24_2) S1024x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun i => !(k2_cond2 i == 1#1) | 4 => fun i => !(k2_cond2 i == 1#1) | 5 => fun _ => false | ⟨_ + 6, h⟩ => absurd h (Nat.not_lt.2 (Nat.le_add_left _ _))

abbrev win3_0 : Pipeline.Window sig grid3 :=
  Pipeline.Window.ofSpec (Memref.whole main_v1) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S64x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v24_0) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v24_1) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v25) S1024x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S8192x1024 : Shape := ⟨2, ![8192, 1024]⟩
abbrev S256x1024 : Shape := ⟨2, ![256, 1024]⟩
abbrev S256 : Shape := ⟨1, ![256]⟩
abbrev S64x256 : Shape := ⟨2, ![64, 256]⟩
abbrev S8192 : Shape := ⟨1, ![8192]⟩
abbrev S1024x256 : Shape := ⟨2, ![1024, 256]⟩
abbrev S8192x256 : Shape := ⟨2, ![8192, 256]⟩
abbrev S1x256 : Shape := ⟨2, ![1, 256]⟩
abbrev S_ : Shape := ⟨0, ![]⟩
abbrev S8192x1 : Shape := ⟨2, ![8192, 1]⟩
abbrev S64 : Shape := ⟨1, ![64]⟩
abbrev S64x1 : Shape := ⟨2, ![64, 1]⟩
abbrev S256x8192 : Shape := ⟨2, ![256, 8192]⟩
abbrev S8192x8192 : Shape := ⟨2, ![8192, 8192]⟩
abbrev S256x64 : Shape := ⟨2, ![256, 64]⟩
abbrev S8192x64 : Shape := ⟨2, ![8192, 64]⟩
abbrev S1x8192 : Shape := ⟨2, ![1, 8192]⟩
abbrev S8192x1x1 : Shape := ⟨3, ![8192, 1, 1]⟩
abbrev S1 : Shape := ⟨1, ![1]⟩
abbrev S1x1x1 : Shape := ⟨3, ![1, 1, 1]⟩
abbrev S1x64 : Shape := ⟨2, ![1, 64]⟩
abbrev S64x8192 : Shape := ⟨2, ![64, 8192]⟩

abbrev nBuf : Space → Nat
  | .hbm => 151
  | .vmem => 0
  | .smem => 0
  | _ => 0

abbrev hbmTy0_0 (i : Nat) : BufTy := match i % 128 with
  | 0 => ⟨S8192x1024, .f32⟩
  | 1 => ⟨S256x1024, .f32⟩
  | 2 => ⟨S256, .f32⟩
  | 3 => ⟨S64x256, .f32⟩
  | 4 => ⟨S8192, .i32⟩
  | 5 => ⟨S1024x256, .f32⟩
  | 6 => ⟨S8192x256, .f32⟩
  | 7 => ⟨S1x256, .f32⟩
  | 8 => ⟨S8192x256, .f32⟩
  | 9 => ⟨S8192x256, .f32⟩
  | 10 => ⟨S8192x256, .f32⟩
  | 11 => ⟨S_, .f32⟩
  | 12 => ⟨S8192, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x256, .f32⟩
  | 19 => ⟨S8192x256, .f32⟩
  | 20 => ⟨S64x256, .f32⟩
  | 21 => ⟨S_, .f32⟩
  | 22 => ⟨S64, .f32⟩
  | 23 => ⟨S64x1, .f32⟩
  | 24 => ⟨S64x1, .f32⟩
  | 25 => ⟨S_, .f32⟩
  | 26 => ⟨S64x1, .f32⟩
  | 27 => ⟨S64x1, .f32⟩
  | 28 => ⟨S64x256, .f32⟩
  | 29 => ⟨S64x256, .f32⟩
  | 30 => ⟨S256x8192, .f32⟩
  | 31 => ⟨S8192x8192, .f32⟩
  | 32 => ⟨S256x64, .f32⟩
  | 33 => ⟨S8192x64, .f32⟩
  | 34 => ⟨S8192x1, .i32⟩
  | 35 => ⟨S1x8192, .i32⟩
  | 36 => ⟨S8192x8192, .i32⟩
  | 37 => ⟨S8192x8192, .i32⟩
  | 38 => ⟨S8192x8192, .i1⟩
  | 39 => ⟨S8192x8192, .i32⟩
  | 40 => ⟨S8192x8192, .i32⟩
  | 41 => ⟨S_, .i32⟩
  | 42 => ⟨S8192x8192, .i32⟩
  | 43 => ⟨S8192x8192, .i32⟩
  | 44 => ⟨S8192x8192, .i1⟩
  | 45 => ⟨S8192x8192, .i1⟩
  | 46 => ⟨S8192x8192, .f32⟩
  | 47 => ⟨S8192x8192, .i1⟩
  | 48 => ⟨S_, .f32⟩
  | 49 => ⟨S_, .f32⟩
  | 50 => ⟨S8192x8192, .f32⟩
  | 51 => ⟨S8192x8192, .f32⟩
  | 52 => ⟨S_, .f32⟩
  | 53 => ⟨S8192, .f32⟩
  | 54 => ⟨S8192x8192, .i1⟩
  | 55 => ⟨S_, .f32⟩
  | 56 => ⟨S_, .f32⟩
  | 57 => ⟨S8192x8192, .f32⟩
  | 58 => ⟨S8192x8192, .f32⟩
  | 59 => ⟨S8192x8192, .f32⟩
  | 60 => ⟨S8192x1, .f32⟩
  | 61 => ⟨S8192x8192, .f32⟩
  | 62 => ⟨S8192x8192, .f32⟩
  | 63 => ⟨S8192x8192, .f32⟩
  | 64 => ⟨S8192x8192, .f32⟩
  | 65 => ⟨S8192x8192, .f32⟩
  | 66 => ⟨S_, .f32⟩
  | 67 => ⟨S_, .f32⟩
  | 68 => ⟨S8192x8192, .f32⟩
  | 69 => ⟨S8192x8192, .f32⟩
  | 70 => ⟨S_, .f32⟩
  | 71 => ⟨S_, .f32⟩
  | 72 => ⟨S_, .f32⟩
  | 73 => ⟨S_, .f32⟩
  | 74 => ⟨S8192x1, .i32⟩
  | 75 => ⟨S_, .i32⟩
  | 76 => ⟨S8192x1, .i32⟩
  | 77 => ⟨S8192x1, .i1⟩
  | 78 => ⟨S_, .i32⟩
  | 79 => ⟨S8192x1, .i32⟩
  | 80 => ⟨S8192x1, .i32⟩
  | 81 => ⟨S8192x1, .i32⟩
  | 82 => ⟨S8192x1x1, .i32⟩
  | 83 => ⟨S1, .i32⟩
  | 84 => ⟨S_, .i32⟩
  | 85 => ⟨S8192x1x1, .i32⟩
  | 86 => ⟨S8192x1x1, .i1⟩
  | 87 => ⟨S1x1x1, .i32⟩
  | 88 => ⟨S8192x1x1, .i32⟩
  | 89 => ⟨S8192x1x1, .i1⟩
  | 90 => ⟨S8192x1x1, .i1⟩
  | 91 => ⟨S_, .i1⟩
  | 92 => ⟨S8192x1, .i1⟩
  | 93 => ⟨S8192x1, .f32⟩
  | 94 => ⟨S_, .f32⟩
  | 95 => ⟨S8192x1, .f32⟩
  | 96 => ⟨S8192x1, .f32⟩
  | 97 => ⟨S8192, .f32⟩
  | 98 => ⟨S8192x1, .i32⟩
  | 99 => ⟨S1x64, .i32⟩
  | 100 => ⟨S8192x64, .i32⟩
  | 101 => ⟨S8192x64, .i32⟩
  | 102 => ⟨S8192x64, .i1⟩
  | 103 => ⟨S8192x64, .f32⟩
  | 104 => ⟨S8192x64, .f32⟩
  | 105 => ⟨S_, .f32⟩
  | 106 => ⟨S8192x64, .f32⟩
  | 107 => ⟨S8192x64, .f32⟩
  | 108 => ⟨S8192x64, .f32⟩
  | 109 => ⟨S_, .f32⟩
  | 110 => ⟨S8192, .f32⟩
  | 111 => ⟨S64x8192, .f32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S8192x8192, .f32⟩
  | 121 => ⟨S8192x8192, .i1⟩
  | 122 => ⟨S_, .f32⟩
  | 123 => ⟨S_, .f32⟩
  | 124 => ⟨S8192x8192, .f32⟩
  | 125 => ⟨S8192x8192, .f32⟩
  | 126 => ⟨S_, .f32⟩
  | 127 => ⟨S8192, .f32⟩
  | _ => ⟨S8192x1024, .f32⟩

abbrev hbmTy0_1 (i : Nat) : BufTy := match i % 128 with
  | 0 => ⟨S8192, .f32⟩
  | 1 => ⟨S8192, .f32⟩
  | 2 => ⟨S8192, .f32⟩
  | 3 => ⟨S8192, .f32⟩
  | 4 => ⟨S8192, .f32⟩
  | 5 => ⟨S_, .f32⟩
  | 6 => ⟨S_, .f32⟩
  | 7 => ⟨S_, .f32⟩
  | 8 => ⟨S_, .f32⟩
  | 9 => ⟨S8192, .f32⟩
  | 10 => ⟨S8192, .f32⟩
  | 11 => ⟨S8192, .f32⟩
  | 12 => ⟨S8192, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_call1_v2 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_call2_v0 : Ref sig .tc := ⟨.hbm, 49, rfl⟩
abbrev main_call2_v1 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_call3_v0 : Ref sig .tc := ⟨.hbm, 56, rfl⟩
abbrev main_call3_v1 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_call4_v0 : Ref sig .tc := ⟨.hbm, 67, rfl⟩
abbrev main_call4_v1 : Ref sig .tc := ⟨.hbm, 68, rfl⟩
abbrev main_v43 : Ref sig .tc := ⟨.hbm, 69, rfl⟩
abbrev main_cst_5 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_call5_c : Ref sig .tc := ⟨.hbm, 75, rfl⟩
abbrev main_call5_v0 : Ref sig .tc := ⟨.hbm, 76, rfl⟩
abbrev main_call5_v1 : Ref sig .tc := ⟨.hbm, 77, rfl⟩
abbrev main_call5_c_0 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_call5_v5 : Ref sig .tc := ⟨.hbm, 82, rfl⟩
abbrev main_call5_c_1 : Ref sig .tc := ⟨.hbm, 83, rfl⟩
abbrev main_call5_c_2 : Ref sig .tc := ⟨.hbm, 84, rfl⟩
abbrev main_call5_v6 : Ref sig .tc := ⟨.hbm, 85, rfl⟩
abbrev main_call5_v7 : Ref sig .tc := ⟨.hbm, 86, rfl⟩
abbrev main_call5_v8 : Ref sig .tc := ⟨.hbm, 87, rfl⟩
abbrev main_call5_v9 : Ref sig .tc := ⟨.hbm, 88, rfl⟩
abbrev main_call5_v10 : Ref sig .tc := ⟨.hbm, 89, rfl⟩
abbrev main_call5_v11 : Ref sig .tc := ⟨.hbm, 90, rfl⟩
abbrev main_call5_c_3 : Ref sig .tc := ⟨.hbm, 91, rfl⟩
abbrev main_call5_v12 : Ref sig .tc := ⟨.hbm, 92, rfl⟩
abbrev main_call5_v13 : Ref sig .tc := ⟨.hbm, 93, rfl⟩
abbrev main_call5_cst : Ref sig .tc := ⟨.hbm, 94, rfl⟩
abbrev main_call5_v14 : Ref sig .tc := ⟨.hbm, 95, rfl⟩
abbrev main_v47 : Ref sig .tc := ⟨.hbm, 96, rfl⟩
abbrev main_v48 : Ref sig .tc := ⟨.hbm, 97, rfl⟩
abbrev main_call6_v0 : Ref sig .tc := ⟨.hbm, 98, rfl⟩
abbrev main_call6_v1 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_v49 : Ref sig .tc := ⟨.hbm, 103, rfl⟩
abbrev main_v50 : Ref sig .tc := ⟨.hbm, 104, rfl⟩
abbrev main_cst_7 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_cst_8 : Ref sig .tc := ⟨.hbm, 109, rfl⟩
abbrev main_v54 : Ref sig .tc := ⟨.hbm, 110, rfl⟩
abbrev main_v55 : Ref sig .tc := ⟨.hbm, 111, rfl⟩
abbrev main_c_9 : Ref sig .tc := ⟨.hbm, 112, rfl⟩
abbrev main_v56 : Ref sig .tc := ⟨.hbm, 113, rfl⟩
abbrev main_v57 : Ref sig .tc := ⟨.hbm, 114, rfl⟩
abbrev main_c_10 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_cst_11 : Ref sig .tc := ⟨.hbm, 122, rfl⟩
abbrev main_call7_v0 : Ref sig .tc := ⟨.hbm, 123, rfl⟩
abbrev main_call7_v1 : Ref sig .tc := ⟨.hbm, 124, rfl⟩
abbrev main_v64 : Ref sig .tc := ⟨.hbm, 125, rfl⟩
abbrev main_cst_12 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_cst_13 : Ref sig .tc := ⟨.hbm, 133, rfl⟩
abbrev main_v71 : Ref sig .tc := ⟨.hbm, 134, rfl⟩
abbrev main_cst_14 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_cst_15 : Ref sig .tc := ⟨.hbm, 141, rfl⟩
abbrev main_v77 : Ref sig .tc := ⟨.hbm, 142, rfl⟩
abbrev main_cst_16 : Ref sig .tc := ⟨.hbm, 143, rfl⟩
abbrev main_v78 : Ref sig .tc := ⟨.hbm, 144, rfl⟩
abbrev main_cst_17 : Ref sig .tc := ⟨.hbm, 145, rfl⟩
abbrev main_v79 : Ref sig .tc := ⟨.hbm, 146, rfl⟩
abbrev main_v80 : Ref sig .tc := ⟨.hbm, 147, rfl⟩
abbrev main_cst_18 : Ref sig .tc := ⟨.hbm, 148, rfl⟩
abbrev main_v81 : Ref sig .tc := ⟨.hbm, 149, rfl⟩
abbrev main_v82 : Ref sig .tc := ⟨.hbm, 150, rfl⟩

abbrev nD : Nat := 1
abbrev τ : Topo := Topo.v7x

variable {F : FTy → Type} [FloatOps F]

class Facts₀ : Prop where
  transposes_S256x1024_S1024x256_1_0 : S256x1024.Transposes [1, 0] S1024x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  reducesTo_S64x256_S64_d1 : S64x256.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  transposes_S8192x256_S256x8192_1_0 : S8192x256.Transposes [1, 0] S256x8192
  transposes_S64x256_S256x64_1_0 : S64x256.Transposes [1, 0] S256x64
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192x8192_S_d0_1 : S8192x8192.ReducesTo [0, 1] S_
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S8192_d1 : S8192x64.ReducesTo [1] S8192
  transposes_S8192x64_S64x8192_1_0 : S8192x64.Transposes [1, 0] S64x8192
  bcast_S_S8192 : S_.BroadcastsInDim S8192 (![] : Fin 0 → Fin S8192.rank)
  reducesTo_S8192_S_d0 : S8192.ReducesTo [0] S_
  dot_S8192x1024_S1024x256_S8192x256_1_0_0_1_n_n_wf : DotDims.WF S8192x1024 S1024x256 S8192x256 [1] [0] [0] [1] [] []
  dot_S8192x256_S256x8192_S8192x8192_1_0_0_1_n_n_wf : DotDims.WF S8192x256 S256x8192 S8192x8192 [1] [0] [0] [1] [] []
  dot_S8192x256_S256x64_S8192x64_1_0_0_1_n_n_wf : DotDims.WF S8192x256 S256x64 S8192x64 [1] [0] [0] [1] [] []
  gather_S8192x64_S8192x1x1_S8192x1_n_1_0_0_1_2_11_wf : GatherDims.WF S8192x64 S8192x1x1 S8192x1 [] [1] [0] [1] [0] 2 ![1, 1]
  gather_S64x8192_S8192x1_S8192x8192_1_0_n_n_0_1_18192_wf : GatherDims.WF S64x8192 S8192x1 S8192x8192 [1] [0] [] [0] [] 1 ![1, 8192]

variable [Facts₀]

def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S8192x1x1_S8192x1_n_1_0_0_1_2_11 : GatherDims S8192x64 S8192x1x1 S8192x1 where
  offsetDims := []
  collapsedSliceDims := [1]
  operandBatchingDims := [0]
  startIndicesBatchingDims := [0]
  startIndexMap := [1]
  indexVectorDim := 2
  sliceSizes := ![1, 1]
  wf := gather_S8192x64_S8192x1x1_S8192x1_n_1_0_0_1_2_11_wf
def gather_S64x8192_S8192x1_S8192x8192_1_0_n_n_0_1_18192 : GatherDims S64x8192 S8192x1 S8192x8192 where
  offsetDims := [1]
  collapsedSliceDims := [0]
  operandBatchingDims := []
  startIndicesBatchingDims := []
  startIndexMap := [0]
  indexVectorDim := 1
  sliceSizes := ![1, 8192]
  wf := gather_S64x8192_S8192x1_S8192x8192_1_0_n_n_0_1_18192_wf

class Facts : Prop extends Facts₀ where

variable [Facts]
-- ==== Proof.KI.R0.lean ====
import proofs.«400594_j19061064860124_1_alg».proof.Proof.Gen.KernelIdeal.Launch
import proofs.«400594_j19061064860124_1_alg».proof.Proof.Gen.KernelIdeal.Skeleton
import proofs.«400594_j19061064860124_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S1024x1024 := Rect.unit (s := S1024x1024) ![0, 0] S1024x1024.size inb_S1024x1024_S1024x1024_0_0
abbrev rW0 : Rect S256x1024 := Rect.unit (s := S256x1024) ![0, 0] S256x1024.size inb_S256x1024_S256x1024_0_0
abbrev rB0 : Rect S1x256 := Rect.unit (s := S1x256) ![0, 0] S1x256.size inb_S1x256_S1x256_0_0
abbrev rO0 : Rect S1024x256 := Rect.unit (s := S1024x256) ![0, 0] S1024x256.size inb_S1024x256_S1024x256_0_0

def out0_3 (x0 : Vec F S1024x1024 .f32) (x1 : Vec F S256x1024 .f32) (x2 : Vec F S1x256 .f32) : Vec F S1024x256 .bf16 :=
  View.canon [⟨rO0, k0_pay1 (View.ld x0 rX0) (View.ld x1 rW0) (View.ld x2 rB0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

theorem cover0_3 (p0 : Vec F S1024x256 .bf16) (y : S1024x256.Idx) :
    ∃ pc ∈ ([⟨rO0, p0⟩] : List (View.Piece (Elt F) S1024x256 .bf16)), y ∈ pc.1.set :=
  View.cover_of_tiled [⟨rO0, p0⟩] S1024x256.size (by rfl) y

set_option maxHeartbeats 1000000 in

theorem sound_kernel0 (c : Dev nD) (E : Set ℕ) (i : grid0.Coords)
    (arg1 : Memref sig .tc .vmem S1024x1024 .f32) (harg1 : arg1.IsWhole)
    (arg2 : Memref sig .tc .vmem S256x1024 .f32) (harg2 : arg2.IsWhole)
    (arg3 : Memref sig .tc .vmem S1x256 .f32) (harg3 : arg3.IsWhole)
    (arg4 : Memref sig .tc .vmem S1024x256 .bf16) (harg4 : arg4.IsWhole)
    (x0 : Vec F S1024x1024 .f32) (x1 : Vec F S256x1024 .f32) (x2 : Vec F S1x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__transform_norm_kernel i arg1 harg1 arg2 harg2 arg3 harg3 arg4 harg4) K := by
  simp only [cc0__transform_norm_kernel_eq_skeleton]; unfold cc0__transform_norm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe HΦ Ho H0 H1 H2
  iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Hand

end
-- ==== Proof.KI.R1.lean ====
import proofs.«400594_j19061064860124_1_alg».proof.Proof.Gen.KernelIdeal.Launch
import proofs.«400594_j19061064860124_1_alg».proof.Proof.Gen.KernelIdeal.Skeleton
import proofs.«400594_j19061064860124_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def pt1 (n : ℕ) : Fin cfg1.N := ⟨n % 128, lt_of_lt_of_eq (Nat.mod_lt n (by decide)) N_1.symm⟩

theorem pt1_val (t : Fin cfg1.N) : pt1 t.val = t :=
  Fin.ext (Nat.mod_eq_of_lt (lt_of_lt_of_eq t.isLt N_1))

abbrev B1_0 (c : Dev nD) (t : Fin cfg1.N) : Vec F S1024x256 .bf16 := iblk1 V c 0 t
abbrev B1_1 (c : Dev nD) (t : Fin cfg1.N) : Vec F S1024x256 .bf16 := iblk1 V c 1 t
abbrev B1_2 (c : Dev nD) (t : Fin cfg1.N) : Vec F S1024x1 .i32 := iblk1 V c 2 t
abbrev B1_3 (c : Dev nD) (t : Fin cfg1.N) : Vec F S1x1024 .i32 := iblk1 V c 3 t
abbrev B1_4 (c : Dev nD) (t : Fin cfg1.N) : Vec F S1024x1 .f32 := iblk1 V c 4 t

def nstep1 (c : Dev nD) (n : ℕ) (a : Vec F S1024x1 .f32) : Vec F S1024x1 .f32 :=
  if n % 16 = 0 then k1_pay5 (B1_0 V c (pt1 n)) (B1_1 V c (pt1 n)) (B1_2 V c (pt1 n)) (B1_3 V c (pt1 n)) (k1_pay4 (F := F))
  else if n % 16 < 8 then k1_pay5 (B1_0 V c (pt1 n)) (B1_1 V c (pt1 n)) (B1_2 V c (pt1 n)) (B1_3 V c (pt1 n)) a
  else a

def pstep1 (c : Dev nD) (n : ℕ) (a b : Vec F S1024x1 .f32) : Vec F S1024x1 .f32 :=
  if n % 16 = 8 then k1_pay7 (grid1.coords (pt1 n)) (B1_0 V c (pt1 n)) (B1_1 V c (pt1 n)) (B1_2 V c (pt1 n)) (B1_3 V c (pt1 n)) a (k1_pay6 (F := F))
  else if 8 < n % 16 then k1_pay7 (grid1.coords (pt1 n)) (B1_0 V c (pt1 n)) (B1_1 V c (pt1 n)) (B1_2 V c (pt1 n)) (B1_3 V c (pt1 n)) a b
  else b

def nacc1 (c : Dev nD) : ℕ → Vec F S1024x1 .f32
  | 0 => k1_pay4 (F := F)
  | n + 1 => nstep1 V c n (nacc1 c n)

def pacc1 (c : Dev nD) : ℕ → Vec F S1024x1 .f32
  | 0 => k1_pay6 (F := F)
  | n + 1 => pstep1 V c n (nacc1 V c n) (pacc1 c n)

theorem nacc1_succ_first (c : Dev nD) (n : ℕ) (h : n % 16 = 0) :
    nacc1 V c (n + 1) = k1_pay5 (B1_0 V c (pt1 n)) (B1_1 V c (pt1 n)) (B1_2 V c (pt1 n)) (B1_3 V c (pt1 n)) (k1_pay4 (F := F)) := by
  rw [nacc1, nstep1, if_pos h]

theorem nacc1_succ_add (c : Dev nD) (n : ℕ) (h0 : n % 16 ≠ 0) (h1 : n % 16 < 8) :
    nacc1 V c (n + 1) = k1_pay5 (B1_0 V c (pt1 n)) (B1_1 V c (pt1 n)) (B1_2 V c (pt1 n)) (B1_3 V c (pt1 n)) (nacc1 V c n) := by
  rw [nacc1, nstep1, if_neg h0, if_pos h1]

theorem nacc1_succ_keep (c : Dev nD) (n : ℕ) (h : 8 ≤ n % 16) : nacc1 V c (n + 1) = nacc1 V c n := by
  rw [nacc1, nstep1, if_neg (by omega), if_neg (by omega)]

theorem pacc1_succ_first (c : Dev nD) (n : ℕ) (h : n % 16 = 8) :
    pacc1 V c (n + 1) = k1_pay7 (grid1.coords (pt1 n)) (B1_0 V c (pt1 n)) (B1_1 V c (pt1 n)) (B1_2 V c (pt1 n)) (B1_3 V c (pt1 n)) (nacc1 V c n) (k1_pay6 (F := F)) := by
  rw [pacc1, pstep1, if_pos h]

theorem pacc1_succ_add (c : Dev nD) (n : ℕ) (h : 8 < n % 16) :
    pacc1 V c (n + 1) = k1_pay7 (grid1.coords (pt1 n)) (B1_0 V c (pt1 n)) (B1_1 V c (pt1 n)) (B1_2 V c (pt1 n)) (B1_3 V c (pt1 n)) (nacc1 V c n) (pacc1 V c n) := by
  rw [pacc1, pstep1, if_neg (by omega), if_pos h]

def out1_5 (c : Dev nD) (t : Fin cfg1.N) : Vec F S1024x1 .f32 :=
  k1_pay1 (nacc1 V c (t.val + 1)) (B1_4 V c t) (pacc1 V c (t.val + 1))

abbrev scM1_0 : Memref sig .tc .vmem S1024x1 .f32 := Memref.whole cc1_scratch0
abbrev scM1_1 : Memref sig .tc .vmem S1024x1 .f32 := Memref.whole cc1_scratch1

def Phi1 (c : Dev nD) (n : ℕ) : sProp 𝕄 :=
  if n % 16 = 0 then Pipeline.ΦA spec1 c
  else iprop(iprop(iprop(owns (c : Thread nD τ) scM1_0 fullShare (nacc1 V c n)
      ∗ (if 9 ≤ n % 16 then owns (c : Thread nD τ) scM1_1 fullShare (pacc1 V c n) else iprop(∃ d, owns (c : Thread nD τ) scM1_1 fullShare d)))
    ∗ Pipeline.scopedRestBut (Ix := Unit) (Name := ℕ) (U := UR sig nD τ) (Lvl := ℕ) (Val := Elt F) spec1 c [cc1_scratch0, cc1_scratch1]) ∗ ∃ r, prngReg c r)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
  Φ t := Phi1 V c t.val
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

theorem after1_5 (c : Dev nD) (t : Fin cfg1.N) :
    (dat1 V c).after 5 t = k1_pay1 (nacc1 V c (t.val + 1)) (B1_4 V c t) (pacc1 V c (t.val + 1)) := by
  dsimp only [dat1, out1_5]

theorem Phi1_eq (c : Dev nD) (t : Fin (cfg1.N + 1)) : (dat1 V c).Φ t = Phi1 V c t.val := by dsimp only [dat1]

theorem z2 : (![0, 0] : Fin 2 → Nat) = fun _ => 0 := by funext a; fin_cases a <;> rfl

section WholeRect

variable {sg : RefSig} {κ : Kind} {sp : Space} {S : Shape} {e : EltTy} {Val : EltTy → Type}

theorem readAt_unit_zero1 (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

theorem read_writes_unit_zero1 [∀ e, Nonempty (Val e)] (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

end WholeRect

abbrev cond1_0 (i : grid1.Coords) : Prop := Scalar.cmpi .ne (Scalar.extui (Scalar.andi (Scalar.cmpi .eq (BitVec.ofNat 32 (i 1).val) 0#32) (Scalar.cmpi .eq (BitVec.ofNat 32 (i 2).val) 0#32))) 0#32 = 1#1

abbrev cond1_1 (i : grid1.Coords) : Prop := Scalar.cmpi .ne (Scalar.extui (Scalar.cmpi .eq (BitVec.ofNat 32 (i 1).val) 0#32)) 0#32 = 1#1

abbrev cond1_2 (i : grid1.Coords) : Prop := Scalar.cmpi .ne (Scalar.extui (Scalar.andi (Scalar.cmpi .eq (BitVec.ofNat 32 (i 1).val) 1#32) (Scalar.cmpi .eq (BitVec.ofNat 32 (i 2).val) 0#32))) 0#32 = 1#1

abbrev cond1_3 (i : grid1.Coords) : Prop := Scalar.cmpi .ne (Scalar.extui (Scalar.cmpi .eq (BitVec.ofNat 32 (i 1).val) 1#32)) 0#32 = 1#1

abbrev cond1_4 (i : grid1.Coords) : Prop := k1_cond5 i = 1#1

section Kernel

variable (c : Dev nD) (E : Set ℕ) (i : grid1.Coords)
  (arg3 : Memref sig .tc .vmem S1024x256 .bf16) (harg3 : arg3.IsWhole) (arg4 : Memref sig .tc .vmem S1024x256 .bf16) (harg4 : arg4.IsWhole)
  (arg5 : Memref sig .tc .vmem S1024x1 .i32) (harg5 : arg5.IsWhole) (arg6 : Memref sig .tc .vmem S1x1024 .i32) (harg6 : arg6.IsWhole)
  (arg7 : Memref sig .tc .vmem S1024x1 .f32) (harg7 : arg7.IsWhole) (arg8 : Memref sig .tc .vmem S1024x1 .f32) (harg8 : arg8.IsWhole)
  (arg9 : Memref sig .tc .vmem S1024x1 .f32) (harg9 : arg9.IsWhole) (arg10 : Memref sig .tc .vmem S1024x1 .f32) (harg10 : arg10.IsWhole)
  (x0 x1 : Vec F S1024x256 .bf16) (x2 : Vec F S1024x1 .i32) (x3 : Vec F S1x1024 .i32) (x4 : Vec F S1024x1 .f32)
set_option maxHeartbeats 2000000 in
-- One run of the body for its five cases: which conditions hold decides what the output buffer and the two running columns hold afterwards.
theorem sound_kernel1 (xo a b o8 o9 o10 : Vec F S1024x1 .f32)
    (h : (cond1_0 i ∧ cond1_1 i ∧ ¬cond1_2 i ∧ ¬cond1_3 i ∧ ¬cond1_4 i ∧ o8 = xo ∧ o9 = k1_pay5 x0 x1 x2 x3 (k1_pay4 (F := F)) ∧ o10 = b)
      ∨ (¬cond1_0 i ∧ cond1_1 i ∧ ¬cond1_2 i ∧ ¬cond1_3 i ∧ ¬cond1_4 i ∧ o8 = xo ∧ o9 = k1_pay5 x0 x1 x2 x3 a ∧ o10 = b)
      ∨ (¬cond1_0 i ∧ ¬cond1_1 i ∧ cond1_2 i ∧ cond1_3 i ∧ ¬cond1_4 i ∧ o8 = xo ∧ o9 = a ∧ o10 = k1_pay7 i x0 x1 x2 x3 a (k1_pay6 (F := F)))
      ∨ (¬cond1_0 i ∧ ¬cond1_1 i ∧ ¬cond1_2 i ∧ cond1_3 i ∧ ¬cond1_4 i ∧ o8 = xo ∧ o9 = a ∧ o10 = k1_pay7 i x0 x1 x2 x3 a b)
      ∨ (¬cond1_0 i ∧ ¬cond1_1 i ∧ ¬cond1_2 i ∧ cond1_3 i ∧ cond1_4 i ∧ o8 = k1_pay1 a x4 (k1_pay7 i x0 x1 x2 x3 a b) ∧ o9 = a ∧ o10 = k1_pay7 i x0 x1 x2 x3 a b))
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xo
        ∗ owns (c : Thread nD τ) arg9 fullShare a ∗ owns (c : Thread nD τ) arg10 fullShare b
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare o8
        ∗ owns (c : Thread nD τ) arg9 fullShare o9 ∗ owns (c : Thread nD τ) arg10 fullShare o10) -∗ K ⟨⟩))
      ⊢ wp frame (wpE (defs₀ (F := F)) Variants.none c none) E (cc1__inter_kernel i arg3 harg3 arg4 harg4 arg5 harg5 arg6 harg6 arg7 harg7 arg8 harg8 arg9 harg9 arg10 harg10) K := by
  simp only [cc1__inter_kernel_eq_skeleton]; unfold cc1__inter_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  rcases h with ⟨hc0, hc1, hc2, hc3, hc4, rfl, rfl, rfl⟩ | ⟨hc0, hc1, hc2, hc3, hc4, rfl, rfl, rfl⟩ | ⟨hc0, hc1, hc2, hc3, hc4, rfl, rfl, rfl⟩ |
    ⟨hc0, hc1, hc2, hc3, hc4, rfl, rfl, rfl⟩ | ⟨hc0, hc1, hc2, hc3, hc4, rfl, rfl, rfl⟩
  all_goals
    sl_exec (disch := first | exact hc0 | exact hc1 | exact hc2 | exact hc3 | exact hc4)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _; isplitr
      swap; · iexact H5
      ipureintro
      first | exact (read_writes_unit_zero1 _ _ z2 _ _ _).trans (by (try sl_unfold_run_names); simp only [readAt_unit_zero1 (S := S1024x256) _ _ z2, readAt_unit_zero1 (S := S1024x1) _ _ z2, readAt_unit_zero1 (S := S1x1024) _ _ z2, View.readCov_cons_toLoadRect]) | rfl
    isplitl [H6]
    · iexists _; isplitr
      swap; · iexact H6
      ipureintro
      first | exact (read_writes_unit_zero1 _ _ z2 _ _ _).trans (by (try sl_unfold_run_names); simp only [readAt_unit_zero1 (S := S1024x256) _ _ z2, readAt_unit_zero1 (S := S1024x1) _ _ z2, readAt_unit_zero1 (S := S1x1024) _ _ z2, View.readCov_cons_toLoadRect]) | rfl
    iexists _; isplitr
    swap; · iexact H7
    ipureintro
    first | exact (read_writes_unit_zero1 _ _ z2 _ _ _).trans (by (try sl_unfold_run_names); simp only [readAt_unit_zero1 (S := S1024x256) _ _ z2, readAt_unit_zero1 (S := S1024x1) _ _ z2, readAt_unit_zero1 (S := S1x1024) _ _ z2, View.readCov_cons_toLoadRect]) | rfl

end Kernel

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 < 8 :=
  (by decide +kernel : ∀ t : Fin grid1.N, cond1_1 (grid1.coords t) ↔ t.val % 16 < 8)
theorem hcond1_2 : ∀ t : Fin cfg1.N, cond1_2 (grid1.coords t) ↔ t.val % 16 = 8 :=
  (by decide +kernel : ∀ t : Fin grid1.N, cond1_2 (grid1.coords t) ↔ t.val % 16 = 8)
theorem hcond1_3 : ∀ t : Fin cfg1.N, cond1_3 (grid1.coords t) ↔ 8 ≤ t.val % 16 :=
  (by decide +kernel : ∀ t : Fin grid1.N, cond1_3 (grid1.coords t) ↔ 8 ≤ t.val % 16)
theorem hcond1_4 : ∀ t : Fin cfg1.N, cond1_4 (grid1.coords t) ↔ t.val % 16 = 15 :=
  (by decide +kernel : ∀ t : Fin grid1.N, cond1_4 (grid1.coords t) ↔ t.val % 16 = 15)

theorem idleAt1_5 : ∀ t : Fin cfg1.N, t.val % 16 ≠ 15 → cfg1.idle 5 (grid1.coords t) = true :=
  (by decide +kernel : ∀ t : Fin grid1.N, t.val % 16 ≠ 15 → idle1 5 (grid1.coords t) = true)

theorem liveAt1_5 : ∀ t : Fin cfg1.N, t.val % 16 = 15 → cfg1.idle 5 (grid1.coords t) = false :=
  (by decide +kernel : ∀ t : Fin grid1.N, t.val % 16 = 15 → idle1 5 (grid1.coords t) = false)

theorem noFlush1_5 (t : Fin cfg1.N) (h : t.val % 16 ≠ 15) : (cfg1.win 5).flush t = false := by
  cases hf : (cfg1.win 5).flush t
  · rfl
  · exact absurd ((flush1_5 t).mp hf) h

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl
theorem liveAt1_4 (t : Fin cfg1.N) : cfg1.idle 4 (grid1.coords t) = false := rfl

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem Phi1_zero (c : Dev nD) (n : ℕ) (h : n % 16 = 0) : Phi1 V c n = Pipeline.ΦA spec1 c := by
  unfold Phi1; rw [if_pos h]

theorem Phi1_lo (c : Dev nD) (n : ℕ) (h0 : n % 16 ≠ 0) (h1 : n % 16 < 9) :
    Phi1 V c n = iprop(iprop(iprop(owns (c : Thread nD τ) scM1_0 fullShare (nacc1 V c n) ∗ (∃ d, owns (c : Thread nD τ) scM1_1 fullShare d))
      ∗ Pipeline.scopedRestBut (Ix := Unit) (Name := ℕ) (U := UR sig nD τ) (Lvl := ℕ) (Val := Elt F) spec1 c [cc1_scratch0, cc1_scratch1]) ∗ ∃ r, prngReg c r) := by
  unfold Phi1; rw [if_neg h0, if_neg (by omega)]

theorem Phi1_hi (c : Dev nD) (n : ℕ) (h : 9 ≤ n % 16) :
    Phi1 V c n = iprop(iprop(iprop(owns (c : Thread nD τ) scM1_0 fullShare (nacc1 V c n) ∗ owns (c : Thread nD τ) scM1_1 fullShare (pacc1 V c n))
      ∗ Pipeline.scopedRestBut (Ix := Unit) (Name := ℕ) (U := UR sig nD τ) (Lvl := ℕ) (Val := Elt F) spec1 c [cc1_scratch0, cc1_scratch1]) ∗ ∃ r, prngReg c r) := by
  unfold Phi1; rw [if_neg (by omega), if_pos h]

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
        ∗ Pipeline.scopedRestBut (Ix := Unit) (Name := ℕ) (U := UR sig nD τ) (Lvl := ℕ) (Val := Elt F) spec1 c [cc1_scratch0, cc1_scratch1]) ∗ ∃ r, prngReg c r) := by
  unfold Pipeline.ΦA; rw [scopedRest1_split]; simp only [scM1_0, scM1_1, owns_whole]; rfl

def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [Phi1_eq, Phi1_eq, Fin.coe_castSucc, Fin.val_succ]
  rw [show (dat1 V c).leavesExact 0 t = owns (c : Thread nD τ) ((cfg1.win 0).stage (cfg1.slots t 0)) fullShare ((dat1 V c).after 0 t) from by
    unfold Dat.leavesExact; rw [liveAt1_0 t], after1_0]
  rw [show (dat1 V c).leavesExact 1 t = owns (c : Thread nD τ) ((cfg1.win 1).stage (cfg1.slots t 1)) fullShare ((dat1 V c).after 1 t) from by
    unfold Dat.leavesExact; rw [liveAt1_1 t], after1_1]
  rw [show (dat1 V c).leavesExact 2 t = owns (c : Thread nD τ) ((cfg1.win 2).stage (cfg1.slots t 2)) fullShare ((dat1 V c).after 2 t) from by
    unfold Dat.leavesExact; rw [liveAt1_2 t], after1_2]
  rw [show (dat1 V c).leavesExact 3 t = owns (c : Thread nD τ) ((cfg1.win 3).stage (cfg1.slots t 3)) fullShare ((dat1 V c).after 3 t) from by
    unfold Dat.leavesExact; rw [liveAt1_3 t], after1_3]
  rw [show (dat1 V c).leavesExact 4 t = owns (c : Thread nD τ) ((cfg1.win 4).stage (cfg1.slots t 4)) fullShare ((dat1 V c).after 4 t) from by
    unfold Dat.leavesExact; rw [liveAt1_4 t], after1_4]
  have hN : t.val < 128 := lt_of_lt_of_eq t.isLt N_1
  by_cases hA : t.val % 16 = 0
  · have hc0 : cond1_0 (grid1.coords t) := (hcond1_0 t).mpr (by omega)
    have hc1 : cond1_1 (grid1.coords t) := (hcond1_1 t).mpr (by omega)
    have hc2 : ¬cond1_2 (grid1.coords t) := fun h => by have := (hcond1_2 t).mp h; omega
    have hc3 : ¬cond1_3 (grid1.coords t) := fun h => by have := (hcond1_3 t).mp h; omega
    have hc4 : ¬cond1_4 (grid1.coords t) := fun h => by have := (hcond1_4 t).mp h; omega
    rw [Phi1_zero V c t.val (by omega), PhiA1_eq, Phi1_lo V c (t.val + 1) (by omega) (by omega)]
    rw [Dat.leavesExact_idle (dat1 V c) 5 t (idleAt1_5 t (by omega)) (noFlush1_5 t (by omega))]
    rw [nacc1_succ_first V c t.val (by omega), pt1_val]
    iintro ⟨⟨⟨⟨⟨%a, HS0⟩, ⟨%b, HS1⟩⟩, HR⟩, Hg⟩, Ho, ⟨%d0, H0⟩, ⟨%d1, H1⟩, ⟨%d2, H2⟩, ⟨%d3, H3⟩, ⟨%d4, H4⟩, ⟨%d5, H5⟩⟩
    iapply (sound_kernel1 c Set.univ (grid1.coords t) _ _ _ _ _ _ _ _ _ _ _ _ _ _ _ _ (B1_0 V c t) (B1_1 V c t) (B1_2 V c t) (B1_3 V c t) (B1_4 V c t) _ a b _ _ _ (Or.inl ⟨hc0, hc1, hc2, hc3, hc4, rfl, rfl, rfl⟩) _)
    iframe H0 H1 H2 H3 H4 H5 HS0 HS1
    iintro ⟨H0, H1, H2, H3, H4, H5, HS0, HS1⟩
    iframe HS0 HR Hg Ho H0 H1 H2 H3 H4
    isplitl [HS1]; · iexists _; iexact HS1
    iexists _; iexact H5
  by_cases hB : t.val % 16 < 8
  · have hc0 : ¬cond1_0 (grid1.coords t) := fun h => by have := (hcond1_0 t).mp h; omega
    have hc1 : cond1_1 (grid1.coords t) := (hcond1_1 t).mpr (by omega)
    have hc2 : ¬cond1_2 (grid1.coords t) := fun h => by have := (hcond1_2 t).mp h; omega
    have hc3 : ¬cond1_3 (grid1.coords t) := fun h => by have := (hcond1_3 t).mp h; omega
    have hc4 : ¬cond1_4 (grid1.coords t) := fun h => by have := (hcond1_4 t).mp h; omega
    rw [Phi1_lo V c t.val (by omega) (by omega), Phi1_lo V c (t.val + 1) (by omega) (by omega)]
    rw [Dat.leavesExact_idle (dat1 V c) 5 t (idleAt1_5 t (by omega)) (noFlush1_5 t (by omega))]
    rw [nacc1_succ_add V c t.val (by omega) (by omega), pt1_val]
    iintro ⟨⟨⟨⟨HS0, ⟨%b, HS1⟩⟩, HR⟩, Hg⟩, Ho, ⟨%d0, H0⟩, ⟨%d1, H1⟩, ⟨%d2, H2⟩, ⟨%d3, H3⟩, ⟨%d4, H4⟩, ⟨%d5, H5⟩⟩
    iapply (sound_kernel1 c Set.univ (grid1.coords t) _ _ _ _ _ _ _ _ _ _ _ _ _ _ _ _ (B1_0 V c t) (B1_1 V c t) (B1_2 V c t) (B1_3 V c t) (B1_4 V c t) _ (nacc1 V c t.val) b _ _ _ (Or.inr (Or.inl ⟨hc0, hc1, hc2, hc3, hc4, rfl, rfl, rfl⟩)) _)
    iframe H0 H1 H2 H3 H4 H5 HS0 HS1
    iintro ⟨H0, H1, H2, H3, H4, H5, HS0, HS1⟩
    iframe HS0 HR Hg Ho H0 H1 H2 H3 H4
    isplitl [HS1]; · iexists _; iexact HS1
    iexists _; iexact H5
  by_cases hC : t.val % 16 = 8
  · have hc0 : ¬cond1_0 (grid1.coords t) := fun h => by have := (hcond1_0 t).mp h; omega
    have hc1 : ¬cond1_1 (grid1.coords t) := fun h => by have := (hcond1_1 t).mp h; omega
    have hc2 : cond1_2 (grid1.coords t) := (hcond1_2 t).mpr (by omega)
    have hc3 : cond1_3 (grid1.coords t) := (hcond1_3 t).mpr (by omega)
    have hc4 : ¬cond1_4 (grid1.coords t) := fun h => by have := (hcond1_4 t).mp h; omega
    rw [Phi1_lo V c t.val (by omega) (by omega), Phi1_hi V c (t.val + 1) (by omega)]
    rw [Dat.leavesExact_idle (dat1 V c) 5 t (idleAt1_5 t (by omega)) (noFlush1_5 t (by omega))]
    rw [nacc1_succ_keep V c t.val (by omega), pacc1_succ_first V c t.val (by omega), pt1_val]
    iintro ⟨⟨⟨⟨HS0, ⟨%b, HS1⟩⟩, HR⟩, Hg⟩, Ho, ⟨%d0, H0⟩, ⟨%d1, H1⟩, ⟨%d2, H2⟩, ⟨%d3, H3⟩, ⟨%d4, H4⟩, ⟨%d5, H5⟩⟩
    iapply (sound_kernel1 c Set.univ (grid1.coords t) _ _ _ _ _ _ _ _ _ _ _ _ _ _ _ _ (B1_0 V c t) (B1_1 V c t) (B1_2 V c t) (B1_3 V c t) (B1_4 V c t) _ (nacc1 V c t.val) b _ _ _ (Or.inr (Or.inr (Or.inl ⟨hc0, hc1, hc2, hc3, hc4, rfl, rfl, rfl⟩))) _)
    iframe H0 H1 H2 H3 H4 H5 HS0 HS1
    iintro ⟨H0, H1, H2, H3, H4, H5, HS0, HS1⟩
    iframe HS0 HS1 HR Hg Ho H0 H1 H2 H3 H4
    iexists _; iexact H5
  by_cases hE : t.val % 16 = 15
  · have hc0 : ¬cond1_0 (grid1.coords t) := fun h => by have := (hcond1_0 t).mp h; omega
    have hc1 : ¬cond1_1 (grid1.coords t) := fun h => by have := (hcond1_1 t).mp h; omega
    have hc2 : ¬cond1_2 (grid1.coords t) := fun h => by have := (hcond1_2 t).mp h; omega
    have hc3 : cond1_3 (grid1.coords t) := (hcond1_3 t).mpr (by omega)
    have hc4 : cond1_4 (grid1.coords t) := (hcond1_4 t).mpr (by omega)
    rw [Phi1_hi V c t.val (by omega), Phi1_zero V c (t.val + 1) (by omega), PhiA1_eq]
    rw [show (dat1 V c).leavesExact 5 t = owns (c : Thread nD τ) ((cfg1.win 5).stage (cfg1.slots t 5)) fullShare ((dat1 V c).after 5 t) from by
      unfold Dat.leavesExact; rw [liveAt1_5 t (by omega)], after1_5]
    rw [nacc1_succ_keep V c t.val (by omega), pacc1_succ_add V c t.val (by omega), pt1_val]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
    iapply (sound_kernel1 c Set.univ (grid1.coords t) _ _ _ _ _ _ _ _ _ _ _ _ _ _ _ _ (B1_0 V c t) (B1_1 V c t) (B1_2 V c t) (B1_3 V c t) (B1_4 V c t) _ (nacc1 V c t.val) (pacc1 V c t.val) _ _ _ (Or.inr (Or.inr (Or.inr (Or.inr ⟨hc0, hc1, hc2, hc3, hc4, rfl, rfl, rfl⟩)))) _)
    iframe H0 H1 H2 H3 H4 H5 HS0 HS1
    iintro ⟨H0, H1, H2, H3, H4, H5, HS0, HS1⟩
    iframe HR Hg Ho H0 H1 H2 H3 H4 H5
    isplitl [HS0]; · iexists _; iexact HS0
    iexists _; iexact HS1
  · have hc0 : ¬cond1_0 (grid1.coords t) := fun h => by have := (hcond1_0 t).mp h; omega
    have hc1 : ¬cond1_1 (grid1.coords t) := fun h => by have := (hcond1_1 t).mp h; omega
    have hc2 : ¬cond1_2 (grid1.coords t) := fun h => by have := (hcond1_2 t).mp h; omega
    have hc3 : cond1_3 (grid1.coords t) := (hcond1_3 t).mpr (by omega)
    have hc4 : ¬cond1_4 (grid1.coords t) := fun h => by have := (hcond1_4 t).mp h; omega
    rw [Phi1_hi V c t.val (by omega), Phi1_hi V c (t.val + 1) (by omega)]
    rw [Dat.leavesExact_idle (dat1 V c) 5 t (idleAt1_5 t (by omega)) (noFlush1_5 t (by omega))]
    rw [nacc1_succ_keep V c t.val (by omega), pacc1_succ_add V c t.val (by omega), pt1_val]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
    iapply (sound_kernel1 c Set.univ (grid1.coords t) _ _ _ _ _ _ _ _ _ _ _ _ _ _ _ _ (B1_0 V c t) (B1_1 V c t) (B1_2 V c t) (B1_3 V c t) (B1_4 V c t) _ (nacc1 V c t.val) (pacc1 V c t.val) _ _ _ (Or.inr (Or.inr (Or.inr (Or.inl ⟨hc0, hc1, hc2, hc3, hc4, rfl, rfl, rfl⟩)))) _)
    iframe H0 H1 H2 H3 H4 H5 HS0 HS1
    iintro ⟨H0, H1, H2, H3, H4, H5, HS0, HS1⟩
    iframe HS0 HS1 HR Hg Ho H0 H1 H2 H3 H4
    iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [Phi1_eq]; unfold Phi1; rw [if_pos (by rfl)]

theorem hout1 (c : Dev nD) : (dat1 V c).Φ (Fin.last cfg1.N) ⊢ Pipeline.ΦA spec1 c := by
  rw [Phi1_eq]; unfold Phi1; rw [if_pos (by rw [Fin.val_last, show cfg1.N = 128 from N_1])]

end Cert.KernelIdeal.Hand

end
-- ==== Proof.KI.R2.lean ====
import proofs.«400594_j19061064860124_1_alg».proof.Proof.Gen.KernelIdeal.Launch
import proofs.«400594_j19061064860124_1_alg».proof.Proof.Gen.KernelIdeal.Skeleton
import proofs.«400594_j19061064860124_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem z2_R2 : (![0, 0] : Fin 2 → ℕ) = fun _ => 0 := by funext a; fin_cases a <;> rfl

theorem readAt_unit_R2 {κ : Kind} {sp : Space} (S : Shape) {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  View.ld_unit_zero h inb _

theorem read_writes_unit_R2 {κ : Kind} {sp : Space} (S : Shape) {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

abbrev cond2_0 (i : grid2.Coords) : Prop := (Scalar.cmpi .ne (Scalar.extui (Scalar.cmpi .eq (BitVec.ofNat 32 (i 0).val) 0#32)) 0#32) = 1#1

abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 7 :=
  (by decide +kernel : ∀ t : Fin grid2.N, cond2_1 (grid2.coords t) ↔ t.val = 7)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

def acc2a (c : Dev nD) : (n : ℕ) → n < cfg2.N → Vec F S1x64 .f32
  | 0, h => k2_pay1 (k2_pay12 (iblk2 V c 0 ⟨0, h⟩) (iblk2 V c 1 ⟨0, h⟩) (k2_pay10 (F := F)))
  | n + 1, h => k2_pay1 (k2_pay12 (iblk2 V c 0 ⟨n + 1, h⟩) (iblk2 V c 1 ⟨n + 1, h⟩) (acc2a c n (Nat.lt_of_succ_lt h)))

def acc2b (c : Dev nD) : (n : ℕ) → n < cfg2.N → Vec F S1x64 .f32
  | 0, h => k2_pay2 (k2_pay9 (iblk2 V c 0 ⟨0, h⟩) (iblk2 V c 1 ⟨0, h⟩) (iblk2 V c 2 ⟨0, h⟩)) (k2_pay11 (F := F))
  | n + 1, h => k2_pay2 (k2_pay9 (iblk2 V c 0 ⟨n + 1, h⟩) (iblk2 V c 1 ⟨n + 1, h⟩) (iblk2 V c 2 ⟨n + 1, h⟩)) (acc2b c n (Nat.lt_of_succ_lt h))

theorem acc2a_zero (c : Dev nD) (h : 0 < cfg2.N) :
    acc2a V c 0 h = k2_pay1 (k2_pay12 (iblk2 V c 0 ⟨0, h⟩) (iblk2 V c 1 ⟨0, h⟩) (k2_pay10 (F := F))) := rfl
theorem acc2a_succ (c : Dev nD) (n : ℕ) (h : n + 1 < cfg2.N) :
    acc2a V c (n + 1) h = k2_pay1 (k2_pay12 (iblk2 V c 0 ⟨n + 1, h⟩) (iblk2 V c 1 ⟨n + 1, h⟩) (acc2a V c n (Nat.lt_of_succ_lt h))) := rfl
theorem acc2b_zero (c : Dev nD) (h : 0 < cfg2.N) :
    acc2b V c 0 h = k2_pay2 (k2_pay9 (iblk2 V c 0 ⟨0, h⟩) (iblk2 V c 1 ⟨0, h⟩) (iblk2 V c 2 ⟨0, h⟩)) (k2_pay11 (F := F)) := rfl
theorem acc2b_succ (c : Dev nD) (n : ℕ) (h : n + 1 < cfg2.N) :
    acc2b V c (n + 1) h = k2_pay2 (k2_pay9 (iblk2 V c 0 ⟨n + 1, h⟩) (iblk2 V c 1 ⟨n + 1, h⟩) (iblk2 V c 2 ⟨n + 1, h⟩)) (acc2b V c n (Nat.lt_of_succ_lt h)) := rfl

theorem acc2a_pos (c : Dev nD) (t : Fin cfg2.N) (ht : t.val ≠ 0) :
    acc2a V c t.val t.isLt = k2_pay1 (k2_pay12 (iblk2 V c 0 t) (iblk2 V c 1 t) (acc2a V c (t.val - 1) (Nat.lt_of_le_of_lt (Nat.sub_le _ _) t.isLt))) := by
  obtain ⟨n, hn⟩ := t
  cases n with
  | zero => exact absurd rfl ht
  | succ n => rfl
theorem acc2b_pos (c : Dev nD) (t : Fin cfg2.N) (ht : t.val ≠ 0) :
    acc2b V c t.val t.isLt = k2_pay2 (k2_pay9 (iblk2 V c 0 t) (iblk2 V c 1 t) (iblk2 V c 2 t)) (acc2b V c (t.val - 1) (Nat.lt_of_le_of_lt (Nat.sub_le _ _) t.isLt)) := by
  obtain ⟨n, hn⟩ := t
  cases n with
  | zero => exact absurd rfl ht
  | succ n => rfl
theorem acc2a_first (c : Dev nD) (t : Fin cfg2.N) (ht : t.val = 0) :
    acc2a V c t.val t.isLt = k2_pay1 (k2_pay12 (iblk2 V c 0 t) (iblk2 V c 1 t) (k2_pay10 (F := F))) := by
  obtain ⟨n, hn⟩ := t
  cases n with
  | zero => rfl
  | succ n => exact absurd ht (Nat.succ_ne_zero n)
theorem acc2b_first (c : Dev nD) (t : Fin cfg2.N) (ht : t.val = 0) :
    acc2b V c t.val t.isLt = k2_pay2 (k2_pay9 (iblk2 V c 0 t) (iblk2 V c 1 t) (iblk2 V c 2 t)) (k2_pay11 (F := F)) := by
  obtain ⟨n, hn⟩ := t
  cases n with
  | zero => rfl
  | succ n => exact absurd ht (Nat.succ_ne_zero n)

abbrev scM2_0 : Memref sig .tc .vmem S1x64 .f32 := Memref.whole cc2_scratch0
abbrev scM2_1 : Memref sig .tc .vmem S1x64 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 c) ∗ (∃ r, prngReg c r)) := by
  unfold Pipeline.ΦA; rw [scopedRest2_split]; simp only [scM2_0, scM2_1, owns_whole]; try rfl

def Phi2 (c : Dev nD) : (n : ℕ) → n ≤ cfg2.N → sProp 𝕄
  | 0, _ => Pipeline.ΦA spec2 c
  | n + 1, hn => iprop(iprop(iprop(owns (c : Thread nD τ) scM2_0 fullShare (acc2a V c n hn) ∗ owns (c : Thread nD τ) scM2_1 fullShare (acc2b V c n hn)) ∗ rest2 c) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(iprop(iprop(owns (c : Thread nD τ) scM2_0 fullShare (acc2a V c n hn) ∗ owns (c : Thread nD τ) scM2_1 fullShare (acc2b V c n hn)) ∗ rest2 c) ∗ (∃ r, prngReg c r)) := rfl
theorem Phi2_pos (c : Dev nD) (n : ℕ) (h : n ≤ cfg2.N) (hz : n ≠ 0) :
    Phi2 V c n h = iprop(iprop(iprop(owns (c : Thread nD τ) scM2_0 fullShare (acc2a V c (n - 1) (by omega)) ∗ owns (c : Thread nD τ) scM2_1 fullShare (acc2b V c (n - 1) (by omega))) ∗ rest2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => acc2a V c t.val t.isLt
    | ⟨4, _⟩ => acc2b V c t.val t.isLt
    | ⟨5, _⟩ => k2_pay8 (iblk2 V c 0 t) (iblk2 V c 1 t) (iblk2 V c 2 t)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = acc2a V c t.val t.isLt := by dsimp only [dat2]
theorem after2_4 (c : Dev nD) (t : Fin cfg2.N) : (dat2 V c).after 4 t = acc2b V c t.val t.isLt := by dsimp only [dat2]
theorem after2_5 (c : Dev nD) (t : Fin cfg2.N) :
    (dat2 V c).after 5 t = k2_pay8 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

set_option maxHeartbeats 1000000 in
-- One run of the body for its three cases: the first point resets the two running rows, the last also stores them.
theorem run2 (c : Dev nD) (E : Set ℕ) (i : grid2.Coords) (arg1 : Memref sig .tc .vmem S1024x256 .bf16) (harg1 : arg1.IsWhole) (arg2 : Memref sig .tc .vmem S64x256 .f32) (harg2 : arg2.IsWhole) (arg3 : Memref sig .tc .vmem S1024x1 .i32) (harg3 : arg3.IsWhole) (arg4 : Memref sig .tc .vmem S1x64 .f32) (harg4 : arg4.IsWhole) (arg5 : Memref sig .tc .vmem S1x64 .f32) (harg5 : arg5.IsWhole) (arg6 : Memref sig .tc .vmem S1024x1 .f32) (harg6 : arg6.IsWhole) (arg7 : Memref sig .tc .vmem S1x64 .f32) (harg7 : arg7.IsWhole) (arg8 : Memref sig .tc .vmem S1x64 .f32) (harg8 : arg8.IsWhole)
    (x0 : Vec F S1024x256 .bf16) (x1 : Vec F S64x256 .f32) (x2 : Vec F S1024x1 .i32) (y4 y5 : Vec F S1x64 .f32) (y6 : Vec F S1024x1 .f32)
    (a b o4 o5 o7 o8 : Vec F S1x64 .f32)
    (h : (cond2_0 i ∧ ¬cond2_1 i ∧ o4 = y4 ∧ o5 = y5 ∧ o7 = k2_pay1 (k2_pay12 x0 x1 (k2_pay10 (F := F))) ∧ o8 = k2_pay2 (k2_pay9 x0 x1 x2) (k2_pay11 (F := F)))
      ∨ (¬cond2_0 i ∧ ¬cond2_1 i ∧ o4 = y4 ∧ o5 = y5 ∧ o7 = k2_pay1 (k2_pay12 x0 x1 a) ∧ o8 = k2_pay2 (k2_pay9 x0 x1 x2) b)
      ∨ (¬cond2_0 i ∧ cond2_1 i ∧ o4 = k2_pay1 (k2_pay12 x0 x1 a) ∧ o5 = k2_pay2 (k2_pay9 x0 x1 x2) b
          ∧ o7 = k2_pay1 (k2_pay12 x0 x1 a) ∧ o8 = k2_pay2 (k2_pay9 x0 x1 x2) b))
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y4 ∗ owns (c : Thread nD τ) arg5 fullShare y5 ∗ owns (c : Thread nD τ) arg6 fullShare y6
        ∗ owns (c : Thread nD τ) arg7 fullShare a ∗ owns (c : Thread nD τ) arg8 fullShare b
        ∗ (iprop(owns (c : Thread nD τ) arg1 fullShare x0 ∗ owns (c : Thread nD τ) arg2 fullShare x1 ∗ owns (c : Thread nD τ) arg3 fullShare x2
            ∗ owns (c : Thread nD τ) arg4 fullShare o4 ∗ owns (c : Thread nD τ) arg5 fullShare o5 ∗ owns (c : Thread nD τ) arg6 fullShare (k2_pay8 x0 x1 x2)
            ∗ owns (c : Thread nD τ) arg7 fullShare o7 ∗ owns (c : Thread nD τ) arg8 fullShare o8) -∗ K ⟨⟩))
      ⊢ wp frame (wpE (defs₀ (F := F)) Variants.none c none) E (cc2__proto1_kernel i arg1 harg1 arg2 harg2 arg3 harg3 arg4 harg4 arg5 harg5 arg6 harg6 arg7 harg7 arg8 harg8) K := by
  simp only [cc2__proto1_kernel_eq_skeleton]; unfold cc2__proto1_kernel_skel
  simp only [k2_part1_eq_skeleton]; unfold k2_part1_skel
  unfold owns
  iintro ⟨⟨%f0, %hf0, H0⟩, ⟨%f1, %hf1, H1⟩, ⟨%f2, %hf2, H2⟩, ⟨%f4, %hf4, H4⟩, ⟨%f5, %hf5, H5⟩, ⟨%f6, %hf6, H6⟩, ⟨%f7, %hf7, H7⟩, ⟨%f8, %hf8, H8⟩, Hk⟩
  subst hf0; subst hf1; subst hf2; subst hf4; subst hf5; subst hf6; subst hf7; subst hf8
  rcases h with ⟨hc0, hc1, rfl, rfl, rfl, rfl⟩ | ⟨hc0, hc1, rfl, rfl, rfl, rfl⟩ | ⟨hc0, hc1, rfl, rfl, rfl, rfl⟩
  all_goals
    sl_exec (disch := first | sl_exact hc0 | sl_exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H4]
    · iexists _; isplitr
      swap; · iexact H4
      ipureintro
      first | ((try sl_unfold_run_names); (try dsimp only); simp only [read_writes_unit_R2 S1024x1 _ _ z2_R2, read_writes_unit_R2 S1x64 _ _ z2_R2, readAt_unit_R2 S1024x256 _ _ z2_R2, readAt_unit_R2 S64x256 _ _ z2_R2, readAt_unit_R2 S1024x1 _ _ z2_R2, readAt_unit_R2 S1x64 _ _ z2_R2, View.readCov_cons_toLoadRect]; try rfl) | rfl
    isplitl [H5]
    · iexists _; isplitr
      swap; · iexact H5
      ipureintro
      first | ((try sl_unfold_run_names); (try dsimp only); simp only [read_writes_unit_R2 S1024x1 _ _ z2_R2, read_writes_unit_R2 S1x64 _ _ z2_R2, readAt_unit_R2 S1024x256 _ _ z2_R2, readAt_unit_R2 S64x256 _ _ z2_R2, readAt_unit_R2 S1024x1 _ _ z2_R2, readAt_unit_R2 S1x64 _ _ z2_R2, View.readCov_cons_toLoadRect]; try rfl) | rfl
    isplitl [H6]
    · iexists _; isplitr
      swap; · iexact H6
      ipureintro
      first | ((try sl_unfold_run_names); (try dsimp only); simp only [read_writes_unit_R2 S1024x1 _ _ z2_R2, read_writes_unit_R2 S1x64 _ _ z2_R2, readAt_unit_R2 S1024x256 _ _ z2_R2, readAt_unit_R2 S64x256 _ _ z2_R2, readAt_unit_R2 S1024x1 _ _ z2_R2, readAt_unit_R2 S1x64 _ _ z2_R2, View.readCov_cons_toLoadRect]; try rfl) | rfl
    isplitl [H7]
    · iexists _; isplitr
      swap; · iexact H7
      ipureintro
      first | ((try sl_unfold_run_names); (try dsimp only); simp only [read_writes_unit_R2 S1024x1 _ _ z2_R2, read_writes_unit_R2 S1x64 _ _ z2_R2, readAt_unit_R2 S1024x256 _ _ z2_R2, readAt_unit_R2 S64x256 _ _ z2_R2, readAt_unit_R2 S1024x1 _ _ z2_R2, readAt_unit_R2 S1x64 _ _ z2_R2, View.readCov_cons_toLoadRect]; try rfl) | rfl
    iexists _; isplitr
    swap; · iexact H8
    ipureintro
    first | ((try sl_unfold_run_names); (try dsimp only); simp only [read_writes_unit_R2 S1024x1 _ _ z2_R2, read_writes_unit_R2 S1x64 _ _ z2_R2, readAt_unit_R2 S1024x256 _ _ z2_R2, readAt_unit_R2 S64x256 _ _ z2_R2, readAt_unit_R2 S1024x1 _ _ z2_R2, readAt_unit_R2 S1x64 _ _ z2_R2, View.readCov_cons_toLoadRect]; try rfl) | rfl

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_5 : ∀ t : Fin cfg2.N, cfg2.idle 5 (grid2.coords t) = false := by decide +kernel

theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  have hN : t.val < 8 := lt_of_lt_of_eq t.isLt (show cfg2.N = 8 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 5 t = owns (c : Thread nD τ) (st2_5 t) fullShare ((dat2 V c).after 5 t) from by
    unfold Dat.leavesExact; rw [liveAt2_5 t], after2_5]
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1),
      Dat.leavesExact_idle (dat2 V c) 4 t (idleAt2_4 t hc1) (noFlush2_4 t hc1)]
    rw [acc2a_first V c t h0, acc2b_first V c t h0]
    rw [Phi2_castSucc V c t, Phi2_zero V c _ _ h0, PhiA2_eq]
    iintro ⟨⟨⟨⟨⟨%a, HS0⟩, ⟨%b, HS1⟩⟩, Hr⟩, Hg⟩, Ho, ⟨%d0, H0⟩, ⟨%d1, H1⟩, ⟨%d2, H2⟩, ⟨%d3, H3⟩, ⟨%d4, H4⟩, ⟨%d5, H5⟩⟩
    iapply (run2 c Set.univ (grid2.coords t) _ _ _ _ _ _ _ _ _ _ _ _ _ _ _ _ (iblk2 V c 0 t) (iblk2 V c 1 t) (iblk2 V c 2 t) _ _ _ a b _ _ _ _ (Or.inl ⟨hc0, hc1, rfl, rfl, rfl, rfl⟩) _)
    iframe H0 H1 H2 H3 H4 H5 HS0 HS1
    iintro ⟨H0, H1, H2, H3, H4, H5, HS0, HS1⟩
    isplitl [HS0 HS1 Hr Hg]
    · isplitl [HS0 HS1 Hr]
      · isplitl [HS0 HS1]
        · isplitl [HS0]; · iexact HS0
          iexact HS1
        iexact Hr
      iexact Hg
    iframe Ho H0 H1 H2
    isplitl [H3]; · iexists _; iexact H3
    isplitl [H4]; · iexists _; iexact H4
    iexact H5
  · have hc0 : ¬cond2_0 (grid2.coords t) := fun h => h0 ((hcond2_0 t).mp h)
    rw [acc2a_pos V c t h0, acc2b_pos V c t h0]
    rw [Phi2_castSucc V c t, Phi2_pos V c _ _ h0]
    by_cases h1 : t.val = 7
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3]
      rw [show (dat2 V c).leavesExact 4 t = owns (c : Thread nD τ) (st2_4 t) fullShare ((dat2 V c).after 4 t) from by
        unfold Dat.leavesExact; rw [liveAt2_4 t hc1], after2_4]
      rw [acc2a_pos V c t h0, acc2b_pos V c t h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (run2 c Set.univ (grid2.coords t) _ _ _ _ _ _ _ _ _ _ _ _ _ _ _ _ (iblk2 V c 0 t) (iblk2 V c 1 t) (iblk2 V c 2 t) _ _ _ _ _ _ _ _ _ (Or.inr (Or.inr ⟨hc0, hc1, rfl, rfl, rfl, rfl⟩)) _)
      iframe H0 H1 H2 H3 H4 H5 HS0 HS1
      iintro ⟨H0, H1, H2, H3, H4, H5, HS0, HS1⟩
      isplitl [HS0 HS1 Hr Hg]
      · isplitl [HS0 HS1 Hr]
        · isplitl [HS0 HS1]
          · isplitl [HS0]; · iexact HS0
            iexact HS1
          iexact Hr
        iexact Hg
      iframe Ho H0 H1 H2 H3 H4
      iexact H5
    · have hc1 : ¬cond2_1 (grid2.coords t) := fun h => h1 ((hcond2_1 t).mp h)
      rw [Dat.leavesExact_idle (dat2 V c) 3 t (idleAt2_3 t hc1) (noFlush2_3 t hc1),
        Dat.leavesExact_idle (dat2 V c) 4 t (idleAt2_4 t hc1) (noFlush2_4 t hc1)]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply (run2 c Set.univ (grid2.coords t) _ _ _ _ _ _ _ _ _ _ _ _ _ _ _ _ (iblk2 V c 0 t) (iblk2 V c 1 t) (iblk2 V c 2 t) _ _ _ _ _ _ _ _ _ (Or.inr (Or.inl ⟨hc0, hc1, rfl, rfl, rfl, rfl⟩)) _)
      iframe H0 H1 H2 H3 H4 H5 HS0 HS1
      iintro ⟨H0, H1, H2, H3, H4, H5, HS0, HS1⟩
      isplitl [HS0 HS1 Hr Hg]
      · isplitl [HS0 HS1 Hr]
        · isplitl [HS0 HS1]
          · isplitl [HS0]; · iexact HS0
            iexact HS1
          iexact Hr
        iexact Hg
      iframe Ho H0 H1 H2
      isplitl [H3]; · iexists _; iexact H3
      isplitl [H4]; · iexists _; iexact H4
      iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨⟨HS0, HS1⟩, Hr⟩, Hg⟩
  isplitl [HS0 HS1 Hr]
  · isplitl [HS0 HS1]
    · isplitl [HS0]
      · iexists _; iexact HS0
      · iexists _; iexact HS1
    · iexact Hr
  · iexact Hg

theorem hout2 (c : Dev nD) : (dat2 V c).Φ (Fin.last cfg2.N) ⊢ Pipeline.ΦA spec2 c :=
  Phi2_out V c _ (by rw [Fin.val_last]; have : cfg2.N = 8 := N_2; omega)

end Cert.KernelIdeal.Hand

end
-- ==== Proof.KI.R3.lean ====
import proofs.«400594_j19061064860124_1_alg».proof.Proof.Gen.KernelIdeal.Launch
import proofs.«400594_j19061064860124_1_alg».proof.Proof.Gen.KernelIdeal.Skeleton
import proofs.«400594_j19061064860124_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S1024x256 := Rect.unit (s := S1024x256) ![0, 0] S1024x256.size inb_S1024x256_S1024x256_0_0
abbrev r3_b : Rect S64x256 := Rect.unit (s := S64x256) ![0, 0] S64x256.size inb_S64x256_S64x256_0_0
abbrev r3_c : Rect S1024x1 := Rect.unit (s := S1024x1) ![0, 0] S1024x1.size inb_S1024x1_S1024x1_0_0
abbrev r3_d : Rect S1x64 := Rect.unit (s := S1x64) ![0, 0] S1x64.size inb_S1x64_S1x64_0_0

def out3_5 (x0 : Vec F S1024x256 .bf16) (x1 : Vec F S64x256 .f32) (x2 : Vec F S1024x1 .i32) (x3 : Vec F S1x64 .f32) (x4 : Vec F S1x64 .f32) :
    Vec F S1024x1 .f32 :=
  View.canon [⟨r3_c, k3_pay1 (View.ld x0 r3_a) (View.ld x1 r3_b) (View.ld x2 r3_c) (View.ld x3 r3_d) (View.ld x4 r3_d)⟩]

theorem cover3_5 (p0 : Vec F S1024x1 .f32) (y : S1024x1.Idx) :
    ∃ pc ∈ ([⟨r3_c, p0⟩] : List (View.Piece (Elt F) S1024x1 .f32)), y ∈ pc.1.set :=
  View.cover_of_tiled [⟨r3_c, p0⟩] S1024x1.size (by rfl) y

set_option maxHeartbeats 1000000 in

theorem sound_kernel3 (c : Dev nD) (E : Set ℕ) (i : grid3.Coords)
    (arg1 : Memref sig .tc .vmem S1024x256 .bf16) (harg1 : arg1.IsWhole) (arg2 : Memref sig .tc .vmem S64x256 .f32) (harg2 : arg2.IsWhole)
    (arg3 : Memref sig .tc .vmem S1024x1 .i32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1024x1 .f32) (harg6 : arg6.IsWhole)
    (x0 : Vec F S1024x256 .bf16) (x1 : Vec F S64x256 .f32) (x2 : Vec F S1024x1 .i32) (x3 : Vec F S1x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__proto2_kernel i arg1 harg1 arg2 harg2 arg3 harg3 arg4 harg4 arg5 harg5 arg6 harg6) K := by
  simp only [cc3__proto2_kernel_eq_skeleton]; unfold cc3__proto2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe HΦ Ho H0 H1 H2 H3 H4
  iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.KernelIdeal.Hand

end
-- ==== Proof.KI.Run.lean ====
import proofs.«400594_j19061064860124_1_alg».proof.Proof.Gen.KernelIdeal.Launch
import proofs.«400594_j19061064860124_1_alg».proof.Proof.Gen.KernelIdeal.Skeleton
import proofs.«400594_j19061064860124_1_alg».proof.Proof.Gen.KernelIdeal.Points
import proofs.«400594_j19061064860124_1_alg».proof.Proof.Gen.KernelIdeal.Regions
import proofs.«400594_j19061064860124_1_alg».proof.Proof.KI.R0
import proofs.«400594_j19061064860124_1_alg».proof.Proof.KI.R1
import proofs.«400594_j19061064860124_1_alg».proof.Proof.KI.R2
import proofs.«400594_j19061064860124_1_alg».proof.Proof.KI.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem withArrays_arr_of_heq {gr W : Nat} (win : Fin W → Pipeline.WinSpec sig gr) (c : Dev nD) (V : Valuation τ sig (Elt F))
    (A : (w : Fin W) → Buf (Elt F) ((win w).arr.view.loc (c.tc : Thread nD τ)))
    (hA : ∀ w w', Pipeline.arrRef win w' = Pipeline.arrRef win w → HEq (A w') (A w)) (w : Fin W) :
    Pipeline.withArrays win c V A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  exact eq_of_heq ((cast_heq _ _).trans (hA w h.choose (Proc.devRef_injective _ h.choose_spec)))

theorem arr1_cases : ∀ w w' : Fin 6, Pipeline.arrRef spec1 w' = Pipeline.arrRef spec1 w → w' = w ∨ (w' = 0 ∧ w = 1) ∨ (w' = 1 ∧ w = 0) := by
  decide

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev Vin0 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vout0 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)

abbrev Vin1 : (c : Dev nD) → (b : Ref sig .tc) → Buf (Elt F) ((c : Thread nD τ).loc b) := fun c b => W6 m ρ c b

def W7 (c : Dev nD) : Valuation τ sig (Elt F) :=
  Pipeline.withArrays spec1 c (W6 m ρ c) fun w => (dat1 (Vin1 m ρ) c).arrAt w cfg1.N
theorem arrAt1_0 (c : Dev nD) (n : ℕ) : (dat1 (Vin1 m ρ) c).arrAt 0 n = Vin1 m ρ c main_v1 :=
  ((dat1 (Vin1 m ρ) c).arrAt_in 0 rfl n).trans (A_eq1 (Vin1 m ρ) c 0)
theorem arrAt1_1 (c : Dev nD) (n : ℕ) : (dat1 (Vin1 m ρ) c).arrAt 1 n = Vin1 m ρ c main_v1 :=
  ((dat1 (Vin1 m ρ) c).arrAt_in 1 rfl n).trans (A_eq1 (Vin1 m ρ) c 1)
theorem W7_arr (c : Dev nD) (w : Fin cfg1.W) :
    W7 m ρ c (Proc.devRef .tc (Pipeline.arrRef spec1 w)) = (dat1 (Vin1 m ρ) c).arrAt w cfg1.N := by
  unfold W7
  refine withArrays_arr_of_heq spec1 c _ _ (fun w w' e => ?_) w
  rcases arr1_cases w w' e with rfl | ⟨rfl, rfl⟩ | ⟨rfl, rfl⟩
  · exact HEq.rfl
  · exact heq_of_eq ((arrAt1_0 m ρ c _).trans (arrAt1_1 m ρ c _).symm)
  · exact heq_of_eq ((arrAt1_1 m ρ c _).trans (arrAt1_0 m ρ c _).symm)
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev Vout1 : (c : Dev nD) → (b : Ref sig .tc) → Buf (Elt F) ((c : Thread nD τ).loc b) := fun c b => W7 m ρ c b
theorem hF1 (c : Dev nD) (w : Fin cfg1.W) : (dat1 (Vin1 m ρ) c).arrAt w cfg1.N = Vout1 m ρ c (Pipeline.arrRef spec1 w) :=
  (W7_arr m ρ c w).symm
theorem hrest1 (c : Dev nD) : ∀ b, b ∉ Finset.univ.image (Pipeline.arrRef spec1) → Vout1 m ρ c b = Vin1 m ρ c b :=
  fun b hb => W7_of_ne m ρ c b fun w e => hb (Finset.mem_image.mpr ⟨w, Finset.mem_univ _, e⟩)

abbrev W8 : Dev nD → Valuation τ sig (Elt F) := fun c => StableHlo.after hostOps2 (W7 m ρ c)
abbrev Vin2 : (c : Dev nD) → (b : Ref sig .tc) → Buf (Elt F) ((c : Thread nD τ).loc b) := fun c b => W8 m ρ c b

def W9 (c : Dev nD) : Valuation τ sig (Elt F) :=
  Pipeline.withArrays spec2 c (W8 m ρ c) fun w => (dat2 (Vin2 m ρ) c).arrAt w cfg2.N
theorem W9_arr (c : Dev nD) (w : Fin cfg2.W) :
    W9 m ρ c (Proc.devRef .tc (Pipeline.arrRef spec2 w)) = (dat2 (Vin2 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev Vin3 : (c : Dev nD) → (b : Ref sig .tc) → Buf (Elt F) ((c : Thread nD τ).loc b) := fun c b => W9 m ρ c b
theorem hF2 (c : Dev nD) (w : Fin cfg2.W) : (dat2 (Vin2 m ρ) c).arrAt w cfg2.N = Vin3 m ρ c (Pipeline.arrRef spec2 w) :=
  (W9_arr m ρ c w).symm
theorem hrest2 (c : Dev nD) : ∀ b, b ∉ Finset.univ.image (Pipeline.arrRef spec2) → Vin3 m ρ c b = Vin2 m ρ c b :=
  fun b hb => W9_of_ne m ρ c b fun w e => hb (Finset.mem_image.mpr ⟨w, Finset.mem_univ _, e⟩)

def W10 (c : Dev nD) : Valuation τ sig (Elt F) :=
  Pipeline.withArrays spec3 c (W9 m ρ c) fun w => (dat3 (Vin3 m ρ) c).arrAt w cfg3.N
theorem W10_arr (c : Dev nD) (w : Fin cfg3.W) :
    W10 m ρ c (Proc.devRef .tc (Pipeline.arrRef spec3 w)) = (dat3 (Vin3 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev Vout3 : (c : Dev nD) → (b : Ref sig .tc) → Buf (Elt F) ((c : Thread nD τ).loc b) := fun c b => W10 m ρ c b
theorem hF3 (c : Dev nD) (w : Fin cfg3.W) : (dat3 (Vin3 m ρ) c).arrAt w cfg3.N = Vout3 m ρ c (Pipeline.arrRef spec3 w) :=
  (W10_arr m ρ c w).symm
theorem hrest3 (c : Dev nD) : ∀ b, b ∉ Finset.univ.image (Pipeline.arrRef spec3) → Vout3 m ρ c b = Vin3 m ρ c b :=
  fun b hb => W10_of_ne m ρ c b fun w e => hb (Finset.mem_image.mpr ⟨w, Finset.mem_univ _, e⟩)

abbrev W11 : Dev nD → Valuation τ sig (Elt F) := fun c => StableHlo.after hostOps4 (W10 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W8_of (c : Dev nD) (r : Ref sig .tc) (h : r ∉ hostOps2_W) : W8 m ρ c (Proc.devRef .tc r) = W7 m ρ c (Proc.devRef .tc r) :=
  StableHlo.after_of_writes_sub hostOps2 _ hostOps2_writes h
theorem W11_of (c : Dev nD) (r : Ref sig .tc) (h : r ∉ hostOps4_W) : W11 m ρ c (Proc.devRef .tc r) = W10 m ρ c (Proc.devRef .tc r) :=
  StableHlo.after_of_writes_sub hostOps4 _ hostOps4_writes h

theorem W11_of_untouched (c : Dev nD) (r : Ref sig .tc)
    (h0 : r ∉ hostOps0_W) (h1 : r ∉ hostOps1_W) (h2 : r ∉ hostOps1_1_W) (h3 : r ∉ hostOps1_2_W) (h4 : r ∉ hostOps1_3_W)
    (h5 : r ∉ hostOps2_W) (h6 : r ∉ hostOps4_W)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) :
    W11 m ρ c (Proc.devRef .tc r) = m ((c : Thread nD τ).loc r) :=
  (W11_of m ρ c r h6).trans <| (W10_of_ne m ρ c r a3).trans <| (W9_of_ne m ρ c r a2).trans <| (W8_of m ρ c r h5).trans <|
    (W7_of_ne m ρ c r a1).trans <| (W6_of m ρ c r h4).trans <| (W5_of m ρ c r h3).trans <| (W4_of m ρ c r h2).trans <|
    (W3_of m ρ c r h1).trans <| (W2_of_ne m ρ c r a0).trans <| (W1_of m ρ c r h0).trans rfl

theorem W11_of_in0 (c : Dev nD) (w : Fin cfg0.W) (hw : (cfg0.win w).isOut = false)
    (h0 : Pipeline.arrRef spec0 w ∉ hostOps0_W) (h1 : Pipeline.arrRef spec0 w ∉ hostOps1_W) (h2 : Pipeline.arrRef spec0 w ∉ hostOps1_1_W)
    (h3 : Pipeline.arrRef spec0 w ∉ hostOps1_2_W) (h4 : Pipeline.arrRef spec0 w ∉ hostOps1_3_W)
    (h5 : Pipeline.arrRef spec0 w ∉ hostOps2_W) (h6 : Pipeline.arrRef spec0 w ∉ hostOps4_W)
    (a1 : ∀ w', Pipeline.arrRef spec1 w' ≠ Pipeline.arrRef spec0 w) (a2 : ∀ w', Pipeline.arrRef spec2 w' ≠ Pipeline.arrRef spec0 w)
    (a3 : ∀ w', Pipeline.arrRef spec3 w' ≠ Pipeline.arrRef spec0 w) :
    W11 m ρ c (Proc.devRef .tc (Pipeline.arrRef spec0 w)) = m ((c : Thread nD τ).loc (Pipeline.arrRef spec0 w)) :=
  (W11_of m ρ c _ h6).trans <| (W10_of_ne m ρ c _ a3).trans <| (W9_of_ne m ρ c _ a2).trans <| (W8_of m ρ c _ h5).trans <|
    (W7_of_ne m ρ c _ a1).trans <| (W6_of m ρ c _ h4).trans <| (W5_of m ρ c _ h3).trans <| (W4_of m ρ c _ h2).trans <|
    (W3_of m ρ c _ h1).trans <| (W2_arr m ρ c w).trans <| ((dat0 (Vin0 m ρ) c).arrAt_in w hw _).trans <|
    (A_eq0 (Vin0 m ρ) c w).trans <| (W1_of m ρ c _ h0).trans rfl

theorem W11_main_arg0 (c : Dev nD) : W11 m ρ c (Proc.devRef .tc main_arg0) = m ((c : Thread nD τ).loc main_arg0) :=
  W11_of_in0 m ρ c 0 rfl (by decide) (by decide) (by decide) (by decide) (by decide) (by decide) (by decide) (by decide) (by decide) (by decide)
theorem W11_main_arg1 (c : Dev nD) : W11 m ρ c (Proc.devRef .tc main_arg1) = m ((c : Thread nD τ).loc main_arg1) :=
  W11_of_in0 m ρ c 1 rfl (by decide) (by decide) (by decide) (by decide) (by decide) (by decide) (by decide) (by decide) (by decide) (by decide)
theorem W11_main_arg2 (c : Dev nD) : W11 m ρ c (Proc.devRef .tc main_arg2) = m ((c : Thread nD τ).loc main_arg2) :=
  W11_of_untouched m ρ c main_arg2 (by decide) (by decide) (by decide) (by decide) (by decide) (by decide) (by decide) (by decide) (by decide) (by decide) (by decide)
theorem W11_main_arg3 (c : Dev nD) : W11 m ρ c (Proc.devRef .tc main_arg3) = m ((c : Thread nD τ).loc main_arg3) :=
  W11_of_untouched m ρ c main_arg3 (by decide) (by decide) (by decide) (by decide) (by decide) (by decide) (by decide) (by decide) (by decide) (by decide) (by decide)
theorem W11_main_arg4 (c : Dev nD) : W11 m ρ c (Proc.devRef .tc main_arg4) = m ((c : Thread nD τ).loc main_arg4) :=
  W11_of_untouched m ρ c main_arg4 (by decide) (by decide) (by decide) (by decide) (by decide) (by decide) (by decide) (by decide) (by decide) (by decide) (by decide)

def pdats : (p : Fin 4) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W11 m ρ c) ∗ ∃ r, prngReg c r)

theorem toΦA (p : Fin 4) (c : Dev nD) :
    (iprop((∃ r, prngReg c r) ∗ Pipeline.prefHeld (pcfgs (F := F) p).pre c (fun _ => fullShare) (adm (F := F) p).1
        ∗ Pipeline.scopedRest (Pipeline.pin (pcfgs (F := F)) adm p).spec c) : sProp 𝕄)
      ⊢ Pipeline.ΦA (Pipeline.pin (pcfgs (F := F)) adm p).spec c := by
  unfold Pipeline.ΦA
  iintro ⟨Hp, -, Hr⟩
  isplitl [Hr]; · iexact Hr
  iexact Hp

theorem ofΦA (p : Fin 4) (c : Dev nD) :
    (Pipeline.ΦA (Pipeline.pin (pcfgs (F := F)) adm p).spec c : sProp 𝕄)
      ⊢ iprop((∃ r, prngReg c r) ∗ BI.emp ∗ Pipeline.scopedRest (Pipeline.pin (pcfgs (F := F)) adm p).spec c) := by
  unfold Pipeline.ΦA
  iintro ⟨Hr, Hp⟩
  isplitl [Hp]; · iexact Hp
  isplitr; · iempintro
  iexact Hr

theorem last_regroup (c : Dev nD) :
    (iprop(StableHlo.held (c : Thread nD τ) (Pipeline.ucRefs τ sig) (W11 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun w => A_eq0 (Vin0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA 0 c).trans (hin0 (Vin0 m ρ) c)
  hout c := by
    rw [Pipeline.ownSems0_none]
    exact (hout0 (Vin0 m ρ) c).trans (ofΦA 0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v1) ↦{fullShare} V main_v1) ∗ (((c : Thread nD τ).loc main_v19) ↦{fullShare} V main_v19)
          ∗ (((c : Thread nD τ).loc main_v20) ↦{fullShare} V main_v20) ∗ (((c : Thread nD τ).loc main_v18) ↦{fullShare} V main_v18)
          ∗ (((c : Thread nD τ).loc main_v21) ↦{fullShare} V main_v21)) := by
  unfold Pipeline.arrBufs
  exact bigSep_eq_bigSepL_of_eq [main_v1, main_v19, main_v20, main_v18, main_v21] (by decide) (by decide) _

theorem arrays1_eq (V : (c : Dev nD) → (b : Ref sig .tc) → Buf (Elt F) ((c : Thread nD τ).loc b)) (c : Dev nD)
    (G : (w : Fin cfg1.W) → Buf (Elt F) ((cfg1.win w).arr.view.loc (c.tc : Thread nD τ))) :
    ((dat1 V c).arrays G : sProp 𝕄)
      = iprop((((c : Thread nD τ).loc main_v1) ↦{fullShare.left} G 0) ∗ (((c : Thread nD τ).loc main_v1) ↦{fullShare.right} G 1)
          ∗ (((c : Thread nD τ).loc main_v19) ↦{fullShare} G 2) ∗ (((c : Thread nD τ).loc main_v20) ↦{fullShare} G 3)
          ∗ (((c : Thread nD τ).loc main_v18) ↦{fullShare} G 4) ∗ (((c : Thread nD τ).loc main_v21) ↦{fullShare} G 5)) := by
  unfold Pipeline.Dat.arrays
  rw [bigSep_W1]
  rw [(arr_whole1 0).set_eq_univ, (arr_whole1 2).set_eq_univ, (arr_whole1 3).set_eq_univ,
    (arr_whole1 4).set_eq_univ, (arr_whole1 5).set_eq_univ]
  rfl

theorem hsplit1 (V : (c : Dev nD) → (b : Ref sig .tc) → Buf (Elt F) ((c : Thread nD τ).loc b)) (c : Dev nD)
    (G : (w : Fin cfg1.W) → Buf (Elt F) ((cfg1.win w).arr.view.loc (c.tc : Thread nD τ)))
    (hG : ∀ w, G w = V c (Pipeline.arrRef spec1 w)) :
    (Pipeline.arrBufs (Ix := Unit) (Name := ℕ) (U := UR sig nD τ) (Lvl := ℕ) spec1 c (V c) : sProp 𝕄) ⊢ (dat1 V c).arrays G := by
  rw [arrBufs1_eq, arrays1_eq, hG 0, hG 1, hG 2, hG 3, hG 4, hG 5]
  iintro ⟨H1, H19, H20, H18, H21⟩
  ihave H := (pointsTo_share (PosShare.mem_left_op_right fullShare)).1 $$ H1
  icases H with ⟨Hl, Hr⟩
  iframe Hl Hr H19 H20 H18
  iexact H21

theorem hjoin1 (V : (c : Dev nD) → (b : Ref sig .tc) → Buf (Elt F) ((c : Thread nD τ).loc b)) (c : Dev nD)
    (V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w)) :
    ((dat1 V c).arrays G : sProp 𝕄) ⊢ Pipeline.arrBufs (Ix := Unit) (Name := ℕ) (U := UR sig nD τ) (Lvl := ℕ) spec1 c V' := by
  rw [arrBufs1_eq, arrays1_eq, hG 0, hG 1, hG 2, hG 3, hG 4, hG 5]
  iintro ⟨Hl, Hr, H19, H20, H18, H21⟩
  isplitl [Hl Hr]
  · iapply (pointsTo_share (PosShare.mem_left_op_right fullShare)).2
    isplitl [Hl]; · iexact Hl
    iexact Hr
  iframe H19 H20 H18
  iexact H21

theorem unscopedRest1_eq (c : Dev nD) :
    (Pipeline.unscopedRest (Ix := Unit) (Name := ℕ) (U := UR sig nD τ) (Lvl := ℕ) spec1 c (Vout1 m ρ c) : sProp 𝕄)
      = Pipeline.unscopedRest spec1 c (Vin1 m ρ c) := by
  unfold Pipeline.unscopedRest
  exact bigSep_congr fun b hb => by rw [hrest1 m ρ c b (Finset.mem_sdiff.mp hb).2]

set_option backward.isDefEq.respectTransparency.types false in

theorem arrays_entry1 (c : Dev nD) :
    (StableHlo.held (c : Thread nD τ) (Pipeline.ucRefs τ sig) (W6 m ρ c) : sProp 𝕄)
      ⊢ iprop((pdats m ρ 1 c).arrays ((pdats m ρ 1 c).arrAt · 0)
          ∗ Pipeline.unscopedRest (Ix := Unit) (Name := ℕ) (U := UR sig nD τ) (Lvl := ℕ) spec1 c (Vin1 m ρ c)) := by
  have hub := Pipeline.unscopedBufs_split₀ (Ix := Unit) (Name := ℕ) (U := UR sig nD τ) (Lvl := ℕ) (Pipeline.pin (pcfgs (F := F)) adm) 1 winFacts₀1.arr_unscoped c (Vin1 m ρ c)
  rw [Pipeline.unscopedBufs_held] at hub
  rw [hub]
  exact BIClass.sep_mono (hsplit1 (Vin1 m ρ) c ((dat1 (Vin1 m ρ) c).arrAt · 0) fun w => A_eq1 (Vin1 m ρ) c w) .rfl

set_option backward.isDefEq.respectTransparency.types false in

theorem arrays_exit1 (c : Dev nD) :
    (iprop((pdats m ρ 1 c).arrays ((pdats m ρ 1 c).arrAt · cfg1.N)
        ∗ Pipeline.unscopedRest (Ix := Unit) (Name := ℕ) (U := UR sig nD τ) (Lvl := ℕ) spec1 c (Vin1 m ρ c)) : sProp 𝕄)
      ⊢ StableHlo.held (c : Thread nD τ) (Pipeline.ucRefs τ sig) (W7 m ρ c) := by
  have hub := Pipeline.unscopedBufs_split₀ (Ix := Unit) (Name := ℕ) (U := UR sig nD τ) (Lvl := ℕ) (Pipeline.pin (pcfgs (F := F)) adm) 1 winFacts₀1.arr_unscoped c (Vout1 m ρ c)
  rw [Pipeline.unscopedBufs_held] at hub
  rw [hub]
  exact BIClass.sep_mono (hjoin1 (Vin1 m ρ) c (Vout1 m ρ c) ((dat1 (Vin1 m ρ) c).arrAt · cfg1.N) (hF1 m ρ c))
    (Entails.of_eq (unscopedRest1_eq m ρ c).symm)

set_option backward.isDefEq.respectTransparency.types false in

def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := arrays_entry1 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA 1 c).trans (hin1 (Vin1 m ρ) c)
  hout c := by
    rw [Pipeline.ownSems0_none]
    exact (hout1 (Vin1 m ρ) c).trans (ofΦA 1 c)
  hexit c := by
    have hjoin := arrays_exit1 m ρ c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun w => A_eq2 (Vin2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA 2 c).trans (hin2 (Vin2 m ρ) c)
  hout c := by
    rw [Pipeline.ownSems0_none]
    exact (hout2 (Vin2 m ρ) c).trans (ofΦA 2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vin3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vin3 m ρ c) fun w => A_eq3 (Vin3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toΦA 3 c).trans (hin3 (Vin3 m ρ) c)
  hout c := by
    rw [Pipeline.ownSems0_none]
    exact (hout3 (Vin3 m ρ) c).trans (ofΦA 3 c)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vin3 m ρ c) (Vout3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .region (reg1 m ρ),
    .host (hseg hostOps2 hostOps2_sub hostOps2_fresh (W7 m ρ)),
    .region (reg2 m ρ),
    .region (reg3 m ρ),
    .host (hseg hostOps4 hostOps4_sub hostOps4_fresh (W10 m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => last_regroup m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  OrdCont.mono (θ_run defs (onTc (τ := τ) (main (F := F))) ⟨m, fun _ => 0, ρ⟩) (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c)⟩) (run_all m ρ)

end Cert.KernelIdeal.Hand

end
-- ==== Proof.KI.Spec.lean ====
import Idealize.ShloMosaic.PureOps.Ideal
import Mathlib.Algebra.BigOperators.Fin
import Mathlib.Data.Fintype.BigOperators

noncomputable section

namespace Cert.Spec

open Idealize.ShloMosaic
open scoped BigOperators

abbrev eps : EReal := Ideal.ofBits .f32 0x322BCC77#32

abbrev one : EReal := Ideal.ofBits .f32 0x3F800000#32
abbrev c8192 : EReal := Ideal.ofBits .f32 0x46000000#32
abbrev c2p26 : EReal := Ideal.ofBits .f32 0x4C800000#32
abbrev half : EReal := Ideal.ofBits .f32 0x3F000000#32

def gi (t : Fin 8) (r : Fin 1024) : Fin 8192 := ⟨t.val * 1024 + r.val, by have := t.isLt; have := r.isLt; omega⟩

section Embeddings
variable (X : Fin 8192 → Fin 1024 → EReal) (W : Fin 256 → Fin 1024 → EReal) (b : Fin 256 → EReal)
variable (Le : Fin 64 → Fin 256 → EReal)

def emb (i : Fin 8192) (e : Fin 256) : EReal := (∑ k : Fin 1024, X i k * W e k) + b e

def nrm (i : Fin 8192) : EReal := max (Ideal.sqrt (∑ e : Fin 256, emb X W b i e * emb X W b i e)) eps

def en (i : Fin 8192) (e : Fin 256) : EReal := Ideal.div (emb X W b i e) (nrm X W b i)

def lnrm (l : Fin 64) : EReal := max (Ideal.sqrt (∑ e : Fin 256, Le l e * Le l e)) eps
def ln (l : Fin 64) (e : Fin 256) : EReal := Ideal.div (Le l e) (lnrm Le l)
end Embeddings

section Losses
variable (en : Fin 8192 → Fin 256 → EReal) (ln : Fin 64 → Fin 256 → EReal) (lab : Fin 8192 → BitVec 32)

def S (i j : Fin 8192) : EReal := ∑ e : Fin 256, en i e * en j e
def C (i : Fin 8192) (l : Fin 64) : EReal := ∑ e : Fin 256, en i e * ln l e

def hot (i : Fin 8192) (l : Fin 64) : EReal := if lab i = BitVec.ofNat 32 l.val then 1 else 0

def Nk (i : Fin 8192) : EReal :=
  ∑ jt : Fin 8, ∑ jj : Fin 1024, if lab i = lab (gi jt jj) then 0 else Ideal.exp (S en i (gi jt jj))

def Pk (i : Fin 8192) : EReal :=
  ∑ jt : Fin 8, ∑ jj : Fin 1024, if lab i = lab (gi jt jj) ∧ i ≠ gi jt jj
    then (0 - S en i (gi jt jj)) + Ideal.log (Nk en lab i + Ideal.exp (S en i (gi jt jj))) else 0

def countK (l : Fin 64) : EReal := ∑ i : Fin 8192, hot lab i l
def cnegK (i : Fin 8192) : EReal := c8192 - countK lab ⟨(lab i).toNat % 64, Nat.mod_lt _ (by decide)⟩

def rowK (i : Fin 8192) : EReal := Pk en lab i + cnegK lab i * Ideal.log (Nk en lab i + one)

def posK (i : Fin 8192) : EReal := ∑ l : Fin 64, C en ln i l * hot lab i l

def p1K (i : Fin 8192) : EReal :=
  (0 - posK en ln lab i) + Ideal.log (((∑ l : Fin 64, Ideal.exp (C en ln i l)) - Ideal.exp (posK en ln lab i)) + Ideal.exp (posK en ln lab i))

def colsumK (l : Fin 64) : EReal := ∑ t : Fin 8, ∑ r : Fin 1024, Ideal.exp (C en ln (gi t r) l)
def possumK (l : Fin 64) : EReal := ∑ t : Fin 8, ∑ r : Fin 1024, hot lab (gi t r) l * Ideal.exp (posK en ln lab (gi t r))

def p2K (i : Fin 8192) : EReal :=
  (0 - posK en ln lab i) + Ideal.log ((∑ l : Fin 64, hot lab i l * (colsumK en ln l - possumK en ln lab l)) + Ideal.exp (posK en ln lab i))

def resK : EReal :=
  half * Ideal.div (∑ i : Fin 8192, rowK en lab i) c2p26
    + half * (Ideal.div (∑ i : Fin 8192, p1K en ln lab i) c8192 + Ideal.div (∑ i : Fin 8192, p2K en ln lab i) c8192)

def Nr (i : Fin 8192) : EReal := ∑ j : Fin 8192, if lab i = lab j then 0 else Ideal.exp (S en i j)

def Pm (i j : Fin 8192) : EReal := if lab i = lab j ∧ i ≠ j then S en i j else 0
def interR : EReal :=
  Ideal.div (∑ i : Fin 8192, ∑ j : Fin 8192, if i ≠ j then (-(Pm en lab i j)) + Ideal.log (Nr en lab i + Ideal.exp (Pm en lab i j)) else 0) c2p26

def posR (i : Fin 8192) : EReal := C en ln i ⟨(lab i).toNat % 64, Nat.mod_lt _ (by decide)⟩
def neg1R (i : Fin 8192) : EReal := ∑ l : Fin 64, Ideal.exp (C en ln i l) * (one - hot lab i l)
def neg2R (i : Fin 8192) : EReal :=
  ∑ j : Fin 8192, if lab i = lab j then 0 else Ideal.exp (C en ln j ⟨(lab i).toNat % 64, Nat.mod_lt _ (by decide)⟩)
def p1R (i : Fin 8192) : EReal := (-(posR en ln lab i)) + Ideal.log (neg1R en ln lab i + Ideal.exp (posR en ln lab i))
def p2R (i : Fin 8192) : EReal := (-(posR en ln lab i)) + Ideal.log (neg2R en ln lab i + Ideal.exp (posR en ln lab i))
def resR : EReal :=
  half * interR en lab
    + half * (Ideal.div (∑ i : Fin 8192, p1R en ln lab i) c8192 + Ideal.div (∑ i : Fin 8192, p2R en ln lab i) c8192)

end Losses

end Cert.Spec

end
-- ==== Proof.KI.Arr.lean ====
import Idealize.ShloMosaic.Lib.ValueIdx

namespace Cert.Arr

open Idealize.ShloMosaic

def arr2 {α : Type} {n0 n1 : Nat} (x : (⟨2, ![n0, n1]⟩ : Shape).Idx → α) (i : Fin n0) (j : Fin n1) : α := x (ValueIdx.ix2 i j)

def arr1 {α : Type} {n : Nat} (x : (⟨1, ![n]⟩ : Shape).Idx → α) (i : Fin n) : α := x (ValueIdx.ix1 i)

def arr0 {α : Type} (x : (⟨0, ![]⟩ : Shape).Idx → α) : α := x ValueIdx.ix0

theorem arr2_def {α : Type} {n0 n1 : Nat} (x : (⟨2, ![n0, n1]⟩ : Shape).Idx → α) (i : Fin n0) (j : Fin n1) : arr2 x i j = x (ValueIdx.ix2 i j) := rfl
end Cert.Arr
-- ==== Proof.KI.Host.lean ====
import proofs.«400594_j19061064860124_1_alg».proof.Proof.Gen.KernelIdeal.Launch
import proofs.«400594_j19061064860124_1_alg».proof.Proof.KI.Spec
import proofs.«400594_j19061064860124_1_alg».proof.Proof.KI.Arr
import Idealize.ShloMosaic.Lib.StableHlo.Run
import Idealize.ShloMosaic.Lib.StableHlo.Predicate
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.Arr
open Idealize.ShloMosaic Idealize.ShloMosaic.TcCoe Idealize.ShloMosaic.ValueIdx
open Idealize.ShloMosaic.StableHlo.Predicate (cmpi_eq_iff slt_iff_toNat gather_take bcast_col1 ixP toInt_eq_toNat_of_lt)
open scoped BigOperators

abbrev Val := Valuation τ sig (Elt Ideal)

abbrev bA0 (W : Val) : S8192x1024.Idx → EReal := W (Proc.devRef .tc main_arg0)
abbrev bA1 (W : Val) : S256x1024.Idx → EReal := W (Proc.devRef .tc main_arg1)
abbrev bA2 (W : Val) : S256.Idx → EReal := W (Proc.devRef .tc main_arg2)
abbrev bA3 (W : Val) : S64x256.Idx → EReal := W (Proc.devRef .tc main_arg3)
abbrev bA4 (W : Val) : S8192.Idx → BitVec 32 := W (Proc.devRef .tc main_arg4)
abbrev bV0 (W : Val) : S1x256.Idx → EReal := W (Proc.devRef .tc main_v0)
abbrev bV1 (W : Val) : S8192x256.Idx → EReal := W (Proc.devRef .tc main_v1)
abbrev bV2 (W : Val) : S64x1.Idx → EReal := W (Proc.devRef .tc main_v2)
abbrev bV6 (W : Val) : S64x256.Idx → EReal := W (Proc.devRef .tc main_v6)
abbrev bV7 (W : Val) : S8192x64.Idx → EReal := W (Proc.devRef .tc main_v7)
abbrev bV18 (W : Val) : S8192x1.Idx → EReal := W (Proc.devRef .tc main_v18)
abbrev bV19 (W : Val) : S8192x1.Idx → BitVec 32 := W (Proc.devRef .tc main_v19)
abbrev bV20 (W : Val) : S1x8192.Idx → BitVec 32 := W (Proc.devRef .tc main_v20)
abbrev bV21 (W : Val) : S8192x1.Idx → EReal := W (Proc.devRef .tc main_v21)
abbrev bV23 (W : Val) : S_.Idx → EReal := W (Proc.devRef .tc main_v23)
abbrev bV24_0 (W : Val) : S1x64.Idx → EReal := W (Proc.devRef .tc main_v24_0)
abbrev bV24_1 (W : Val) : S1x64.Idx → EReal := W (Proc.devRef .tc main_v24_1)
abbrev bV24_2 (W : Val) : S8192x1.Idx → EReal := W (Proc.devRef .tc main_v24_2)
abbrev bV25 (W : Val) : S8192x1.Idx → EReal := W (Proc.devRef .tc main_v25)
abbrev bV33 (W : Val) : S_.Idx → EReal := W (Proc.devRef .tc main_v33)

theorem host0_v0 (W : Val) (e : Fin 256) : arr2 (bV0 (StableHlo.after hostOps0 W)) 0 e = arr1 (bA2 W) e := by
  show (StableHlo.after hostOps0 W (Proc.devRef .tc main_v0) : S1x256.Idx → EReal) (ix2 0 e) = _
  after_results
  exact shapeCast_a_1a_apply (bA2 W) shapeCasts_S256_S1x256 0 e

theorem host0_a0 (W : Val) : bA0 (StableHlo.after hostOps0 W) = bA0 W := by
  show StableHlo.after hostOps0 W (Proc.devRef .tc main_arg0) = _
  after_results
theorem host0_a1 (W : Val) : bA1 (StableHlo.after hostOps0 W) = bA1 W := by
  show StableHlo.after hostOps0 W (Proc.devRef .tc main_arg1) = _
  after_results
theorem host0_a3 (W : Val) : bA3 (StableHlo.after hostOps0 W) = bA3 W := by
  show StableHlo.after hostOps0 W (Proc.devRef .tc main_arg3) = _
  after_results
theorem host0_a4 (W : Val) : bA4 (StableHlo.after hostOps0 W) = bA4 W := by
  show StableHlo.after hostOps0 W (Proc.devRef .tc main_arg4) = _
  after_results

theorem red_S64x256_1 : S64x256.Reduces [1] S64 := by decide

theorem host1_v2 (W : Val) (l : Fin 64) :
    arr2 (bV2 (StableHlo.after hostOps1 W)) l 0 = Ideal.sqrt (∑ e : Fin 256, arr2 (bA3 W) l e * arr2 (bA3 W) l e) := by
  show (StableHlo.after hostOps1 W (Proc.devRef .tc main_v2) : S64x1.Idx → EReal) (ix2 l 0) = _
  after_results
  show Ideal.sqrt (broadcastInDim S64x1 ![0] bcast_S64_S64x1_0
      (Host.reduceAdd (mulf (bA3 W) (bA3 W)) (constant (F := Ideal) S_ .f32 0#32) reducesTo_S64x256_S64_d1 h_S_) (ix2 l 0)) = _
  rw [broadcastInDim_apply _ _ _ (ix2 l 0) (ix1 l) (fun a => by match a with | ⟨0, _⟩ => rfl)]
  rw [hostReduceAdd_apply, Ideal.hostReduceAdd_single _ red_S64x256_1]
  congr 1
  rw [constant_apply, Ideal.ofBits_zero_f32, zero_add]
  show (∑ k : Fin 256, _) = _
  refine Finset.sum_congr rfl fun k _ => ?_
  rw [mulf_apply]
  have hk : red_S64x256_1.lift (ix1 l) k = ix2 l k := by
    funext a; match a with | ⟨0, _⟩ => rfl | ⟨1, _⟩ => rfl
  rw [hk]; rfl

theorem host1_a3 (W : Val) : bA3 (StableHlo.after hostOps1 W) = bA3 W := by
  show StableHlo.after hostOps1 W (Proc.devRef .tc main_arg3) = _
  after_results
theorem host1_a4 (W : Val) : bA4 (StableHlo.after hostOps1 W) = bA4 W := by
  show StableHlo.after hostOps1 W (Proc.devRef .tc main_arg4) = _
  after_results
theorem host1_v1 (W : Val) : bV1 (StableHlo.after hostOps1 W) = bV1 W := by
  show StableHlo.after hostOps1 W (Proc.devRef .tc main_v1) = _
  after_results

theorem host11_v6 (W : Val) (l : Fin 64) (e : Fin 256) :
    arr2 (bV6 (StableHlo.after hostOps1_1 W)) l e = Ideal.div (arr2 (bA3 W) l e) (max (arr2 (bV2 W) l 0) Spec.eps) := by
  show (StableHlo.after hostOps1_1 W (Proc.devRef .tc main_v6) : S64x256.Idx → EReal) (ix2 l e) = _
  after_results
  show Ideal.div (bA3 W (ix2 l e)) (broadcastInDim S64x256 ![0, 1] bcast_S64x1_S64x256_0_1
      (maximumf (bV2 W) (broadcastInDim S64x1 ![] bcast_S_S64x1 (constant (F := Ideal) S_ .f32 0x322BCC77#32))) (ix2 l e)) = _
  rw [broadcastInDim_apply _ _ _ (ix2 l e) (ix2 l 0) (fun a => by match a with | ⟨0, _⟩ => rfl | ⟨1, _⟩ => rfl)]
  rw [maximumf_apply, broadcastInDim_scalar_apply, constant_apply]
  rfl

theorem host11_a4 (W : Val) : bA4 (StableHlo.after hostOps1_1 W) = bA4 W := by
  show StableHlo.after hostOps1_1 W (Proc.devRef .tc main_arg4) = _
  after_results
theorem host11_v1 (W : Val) : bV1 (StableHlo.after hostOps1_1 W) = bV1 W := by
  show StableHlo.after hostOps1_1 W (Proc.devRef .tc main_v1) = _
  after_results

theorem uitofp_cmpi_eq (a b : BitVec 32) :
    (FloatOps.uitofp (F := Ideal) .f32 (IntOp.cmpi .eq a b) : EReal) = if a = b then 1 else 0 := by
  show (((IntOp.cmpi .eq a b).toNat : ℝ) : EReal) = _
  by_cases h : a = b
  · rw [if_pos h, cmpi_eq_iff.mpr h]; simp
  · rw [if_neg h, eq_zero_of_ne_one (fun h1 => h (cmpi_eq_iff.mp h1))]; simp

theorem host12_v7 (W : Val) (i : Fin 8192) (l : Fin 64) :
    arr2 (bV7 (StableHlo.after hostOps1_2 W)) i l = Spec.hot (arr1 (bA4 W)) i l := by
  show (StableHlo.after hostOps1_2 W (Proc.devRef .tc main_v7) : S8192x64.Idx → EReal) (ix2 i l) = _
  after_results
  show FloatOps.uitofp (F := Ideal) .f32 (IntOp.cmpi .eq
      (broadcastInDim S8192x64 ![0, 1] bcast_S8192x1_S8192x64_0_1 (broadcastInDim S8192x1 ![0] bcast_S8192_S8192x1_0 (bA4 W)) (ix2 i l))
      (broadcastInDim S8192x64 ![0, 1] bcast_S1x64_S8192x64_0_1 (iotaInDim S1x64 32 1) (ix2 i l))) = _
  rw [broadcastInDim_apply _ _ _ (ix2 i l) (ix2 i 0) (fun a => by match a with | ⟨0, _⟩ => rfl | ⟨1, _⟩ => rfl),
    broadcastInDim_apply _ _ _ (ix2 i 0) (ix1 i) (fun a => by match a with | ⟨0, _⟩ => rfl),
    broadcastInDim_apply _ _ _ (ix2 i l) (ix2 0 l) (fun a => by match a with | ⟨0, _⟩ => rfl | ⟨1, _⟩ => rfl),
    iotaInDim_apply, uitofp_cmpi_eq]
  rfl

theorem host12_a4 (W : Val) : bA4 (StableHlo.after hostOps1_2 W) = bA4 W := by
  show StableHlo.after hostOps1_2 W (Proc.devRef .tc main_arg4) = _
  after_results
theorem host12_v1 (W : Val) : bV1 (StableHlo.after hostOps1_2 W) = bV1 W := by
  show StableHlo.after hostOps1_2 W (Proc.devRef .tc main_v1) = _
  after_results
theorem host12_v6 (W : Val) : bV6 (StableHlo.after hostOps1_2 W) = bV6 W := by
  show StableHlo.after hostOps1_2 W (Proc.devRef .tc main_v6) = _
  after_results

theorem red_S8192x64_0 : S8192x64.Reduces [0] S64 := by decide

theorem wrap_label (a : BitVec 32) (ha : a.toNat < 64) :
    Scalar.select (IntOp.cmpi .slt a 0#32) (IntOp.addi a 64#32) a = a := by
  have h0 : ¬ IntOp.cmpi .slt a 0#32 = 1#1 := fun h1 =>
    absurd ((slt_iff_toNat (a := a) (b := 0#32) (by omega) (by decide)).mp h1) (by simp)
  rw [eq_zero_of_ne_one h0, select_zero]

theorem gather_label (x : S64.Idx → EReal) (idx : S8192.Idx → BitVec 32) (i : Fin 8192) (h : (idx (ix1 i)).toNat < 64) :
    Host.gather gather_S64_S8192x1_S8192_n_0_n_n_0_1_1 x
        (broadcastInDim S8192x1 ![0] bcast_S8192_S8192x1_0
          (select (cmpi .slt idx (broadcastInDim S8192 ![] bcast_S_S8192 (constantI S_ 32 0#32)))
            (addi idx (broadcastInDim S8192 ![] bcast_S_S8192 (constantI S_ 32 64#32))) idx)) (ix1 i)
      = x (ix1 ⟨(idx (ix1 i)).toNat % 64, Nat.mod_lt _ (by decide)⟩) := by
  have hi : (ix1 i : S8192.Idx) = Shape.Idx.ofFin i := by funext a; match a with | ⟨0, _⟩ => rfl
  rw [hi] at h ⊢
  have hsel : (select (cmpi .slt idx (broadcastInDim S8192 ![] bcast_S_S8192 (constantI S_ 32 0#32)))
      (addi idx (broadcastInDim S8192 ![] bcast_S_S8192 (constantI S_ 32 64#32))) idx) (Shape.Idx.ofFin i)
        = idx (Shape.Idx.ofFin i) := wrap_label _ h
  rw [gather_take gather_S64_S8192x1_S8192_n_0_n_n_0_1_1 rfl rfl rfl rfl x _ i (by decide)]
  refine congrArg x ?_
  funext a
  match a with
  | ⟨0, _⟩ =>
    apply Fin.ext
    show min (_ : BitVec 32).toInt.toNat (64 - 1) = (idx (Shape.Idx.ofFin i)).toNat % 64
    rw [bcast_col1, hsel, toInt_eq_toNat_of_lt (by omega)]
    simp only [Int.toNat_natCast]
    omega

set_option maxHeartbeats 1000000 in

theorem host13_v18 (W : Val) (hlab : ∀ i, (arr1 (bA4 W) i).toNat < 64) (i : Fin 8192) :
    arr2 (bV18 (StableHlo.after hostOps1_3 W)) i 0
      = Spec.c8192 - ∑ j : Fin 8192, arr2 (bV7 W) j ⟨(arr1 (bA4 W) i).toNat % 64, Nat.mod_lt _ (by decide)⟩ := by
  show (StableHlo.after hostOps1_3 W (Proc.devRef .tc main_v18) : S8192x1.Idx → EReal) (ix2 i 0) = _
  after_results
  refine (shapeCast_apply _ shapeCasts_S8192_S8192x1 (ix2 i 0) (ix1 i) (by
    rw [Shape.rowMajor_val_two, Shape.rowMajor_val_one]; show i.val = i.val * 1 + 0; omega)).trans ?_
  rw [subf_apply, broadcastInDim_scalar_apply, constant_apply]
  refine congrArg (Spec.c8192 - ·) ?_
  refine (gather_label _ (bA4 W) i (hlab i)).trans ?_
  rw [hostReduceAdd_apply, Ideal.hostReduceAdd_single _ red_S8192x64_0, constant_apply, Ideal.ofBits_zero_f32, zero_add]
  show (∑ k : Fin 8192, _) = _
  refine Finset.sum_congr rfl fun k _ => ?_
  refine congrArg (bV7 W) ?_
  funext a; match a with | ⟨0, _⟩ => rfl | ⟨1, _⟩ => rfl

theorem host13_v19 (W : Val) (i : Fin 8192) : arr2 (bV19 (StableHlo.after hostOps1_3 W)) i 0 = arr1 (bA4 W) i := by
  show (StableHlo.after hostOps1_3 W (Proc.devRef .tc main_v19) : S8192x1.Idx → BitVec 32) (ix2 i 0) = _
  after_results
  exact shapeCast_apply (bA4 W) shapeCasts_S8192_S8192x1 (ix2 i 0) (ix1 i) (by
    rw [Shape.rowMajor_val_two, Shape.rowMajor_val_one]; show i.val = i.val * 1 + 0; omega)

theorem host13_v20 (W : Val) (i : Fin 8192) : arr2 (bV20 (StableHlo.after hostOps1_3 W)) 0 i = arr1 (bA4 W) i := by
  show (StableHlo.after hostOps1_3 W (Proc.devRef .tc main_v20) : S1x8192.Idx → BitVec 32) (ix2 0 i) = _
  after_results
  exact shapeCast_a_1a_apply (bA4 W) shapeCasts_S8192_S1x8192 0 i

theorem host13_v1 (W : Val) : bV1 (StableHlo.after hostOps1_3 W) = bV1 W := by
  show StableHlo.after hostOps1_3 W (Proc.devRef .tc main_v1) = _
  after_results
theorem host13_v6 (W : Val) : bV6 (StableHlo.after hostOps1_3 W) = bV6 W := by
  show StableHlo.after hostOps1_3 W (Proc.devRef .tc main_v6) = _
  after_results

theorem sum_col (f : S8192x1.Idx → EReal) : ∑ i : S8192x1.Idx, f i = ∑ i : Fin 8192, arr2 f i 0 := by
  rw [sum_idx2]
  refine Finset.sum_congr rfl fun a _ => ?_
  rw [Fin.sum_univ_one]; rfl

theorem scalar_axes : ∀ b : Fin S_.rank, S_.size b = 1 := fun b => Fin.elim0 b

theorem host2_v23 (W : Val) : arr0 (bV23 (StableHlo.after hostOps2 W)) = Ideal.div (∑ i : Fin 8192, arr2 (bV21 W) i 0) Spec.c2p26 := by
  show (StableHlo.after hostOps2 W (Proc.devRef .tc main_v23) : S_.Idx → EReal) ix0 = _
  after_results
  show Ideal.div (Host.reduceAdd (bV21 W) (constant (F := Ideal) S_ .f32 0#32) reducesTo_S8192x1_S_d0_1 h_S_ ix0)
      (constant (F := Ideal) S_ .f32 0x4C800000#32 ix0) = _
  rw [hostReduceAdd_apply, Ideal.hostReduceAdd_total reducesTo_S8192x1_S_d0_1 scalar_axes, constant_apply, constant_apply,
    Ideal.ofBits_zero_f32, zero_add, sum_col]

theorem host2_v1 (W : Val) : bV1 (StableHlo.after hostOps2 W) = bV1 W := by
  show StableHlo.after hostOps2 W (Proc.devRef .tc main_v1) = _
  after_results
theorem host2_v6 (W : Val) : bV6 (StableHlo.after hostOps2 W) = bV6 W := by
  show StableHlo.after hostOps2 W (Proc.devRef .tc main_v6) = _
  after_results
theorem host2_v19 (W : Val) : bV19 (StableHlo.after hostOps2 W) = bV19 W := by
  show StableHlo.after hostOps2 W (Proc.devRef .tc main_v19) = _
  after_results

set_option maxHeartbeats 1000000 in

theorem host4_v33 (W : Val) :
    arr0 (bV33 (StableHlo.after hostOps4 W))
      = Spec.half * arr0 (bV23 W)
        + Spec.half * (Ideal.div (∑ i : Fin 8192, arr2 (bV24_2 W) i 0) Spec.c8192
            + Ideal.div (∑ i : Fin 8192, arr2 (bV25 W) i 0) Spec.c8192) := by
  show (StableHlo.after hostOps4 W (Proc.devRef .tc main_v33) : S_.Idx → EReal) ix0 = _
  after_results
  show constant (F := Ideal) S_ .f32 0x3F000000#32 ix0 * bV23 W ix0
      + constant (F := Ideal) S_ .f32 0x3F000000#32 ix0
        * (Ideal.div (Host.reduceAdd (bV24_2 W) (constant (F := Ideal) S_ .f32 0#32) reducesTo_S8192x1_S_d0_1 h_S_ ix0)
              (constant (F := Ideal) S_ .f32 0x46000000#32 ix0)
            + Ideal.div (Host.reduceAdd (bV25 W) (constant (F := Ideal) S_ .f32 0#32) reducesTo_S8192x1_S_d0_1 h_S_ ix0)
              (constant (F := Ideal) S_ .f32 0x46000000#32 ix0)) = _
  simp only [hostReduceAdd_apply, Ideal.hostReduceAdd_total reducesTo_S8192x1_S_d0_1 scalar_axes, constant_apply,
    Ideal.ofBits_zero_f32, zero_add, sum_col]
  rfl

abbrev hostEntry0 (W0 : Val) : Val := StableHlo.after hostOps0 W0

abbrev hostEntry1 (W2 : Val) : Val :=
  StableHlo.after hostOps1_3 (StableHlo.after hostOps1_2 (StableHlo.after hostOps1_1 (StableHlo.after hostOps1 W2)))

abbrev hostEntry2 (W7 : Val) : Val := StableHlo.after hostOps2 W7

theorem hostEntry1_v1 (W2 : Val) : bV1 (hostEntry1 W2) = bV1 W2 :=
  (host13_v1 _).trans ((host12_v1 _).trans ((host11_v1 _).trans (host1_v1 _)))

theorem hostEntry1_a4_4 (W2 : Val) : bA4 (StableHlo.after hostOps1_1 (StableHlo.after hostOps1 W2)) = bA4 W2 :=
  (host11_a4 _).trans (host1_a4 _)
theorem hostEntry1_a4_5 (W2 : Val) :
    bA4 (StableHlo.after hostOps1_2 (StableHlo.after hostOps1_1 (StableHlo.after hostOps1 W2))) = bA4 W2 :=
  (host12_a4 _).trans (hostEntry1_a4_4 W2)

theorem hostEntry1_v6 (W2 : Val) : arr2 (bV6 (hostEntry1 W2)) = Spec.ln (arr2 (bA3 W2)) := by
  funext l e
  rw [host13_v6, host12_v6, host11_v6, host1_v2, host1_a3]
  rfl

theorem hostEntry1_v19 (W2 : Val) : (fun i => arr2 (bV19 (hostEntry1 W2)) i 0) = arr1 (bA4 W2) :=
  funext fun i => (host13_v19 _ i).trans (congrFun (congrArg arr1 (hostEntry1_a4_5 W2)) i)

theorem hostEntry1_v20 (W2 : Val) (j : Fin 8192) : arr2 (bV20 (hostEntry1 W2)) 0 j = arr2 (bV19 (hostEntry1 W2)) j 0 :=
  (host13_v20 _ j).trans (host13_v19 _ j).symm

theorem hostEntry1_v18 (W2 : Val) (hlab : ∀ i, (arr1 (bA4 W2) i).toNat < 64) (i : Fin 8192) :
    arr2 (bV18 (hostEntry1 W2)) i 0 = Spec.cnegK (arr1 (bA4 W2)) i := by
  have hlab5 : ∀ i, (arr1 (bA4 (StableHlo.after hostOps1_2 (StableHlo.after hostOps1_1 (StableHlo.after hostOps1 W2)))) i).toNat < 64 := by
    rw [hostEntry1_a4_5]; exact hlab
  rw [host13_v18 (StableHlo.after hostOps1_2 (StableHlo.after hostOps1_1 (StableHlo.after hostOps1 W2))) hlab5 i]
  unfold Spec.cnegK Spec.countK
  refine congrArg (Spec.c8192 - ·) ?_
  have key : ∀ (n n' : Nat) (h : n < 64) (h' : n' < 64), n = n' →
      ∑ j : Fin 8192, arr2 (bV7 (StableHlo.after hostOps1_2 (StableHlo.after hostOps1_1 (StableHlo.after hostOps1 W2)))) j ⟨n, h⟩
        = ∑ j : Fin 8192, Spec.hot (arr1 (bA4 W2)) j ⟨n', h'⟩ := by
    intro n n' h h' e
    subst e
    refine Finset.sum_congr rfl fun j _ => ?_
    rw [host12_v7, hostEntry1_a4_4]
  exact key _ _ _ _ (by rw [hostEntry1_a4_5])

set_option maxHeartbeats 2000000 in
theorem value_of_regions (W0 W2 W7 W9 W10 : Val)
    (hlab : ∀ i, (arr1 (bA4 W0) i).toNat < 64)
    (keep0 : ∀ b : Ref sig .tc, (∀ w, Pipeline.arrRef spec0 w ≠ b) → W2 (Proc.devRef .tc b) = hostEntry0 W0 (Proc.devRef .tc b))
    (fin0 : ∀ i e, arr2 (bV1 W2) i e
      = Spec.en (arr2 (bA0 (hostEntry0 W0))) (arr2 (bA1 (hostEntry0 W0))) (fun e => arr2 (bV0 (hostEntry0 W0)) 0 e) i e)
    (keep1 : ∀ b : Ref sig .tc, (∀ w, Pipeline.arrRef spec1 w ≠ b) → W7 (Proc.devRef .tc b) = hostEntry1 W2 (Proc.devRef .tc b))
    (in1_v1 : bV1 W7 = bV1 (hostEntry1 W2)) (in1_v19 : bV19 W7 = bV19 (hostEntry1 W2))
    (fin1 : (∀ j, arr2 (bV20 (hostEntry1 W2)) 0 j = arr2 (bV19 (hostEntry1 W2)) j 0) → ∀ i, arr2 (bV21 W7) i 0
      = Spec.Pk (arr2 (bV1 (hostEntry1 W2))) (fun i => arr2 (bV19 (hostEntry1 W2)) i 0) i
        + arr2 (bV18 (hostEntry1 W2)) i 0
          * Ideal.log (Spec.Nk (arr2 (bV1 (hostEntry1 W2))) (fun i => arr2 (bV19 (hostEntry1 W2)) i 0) i + Spec.one))
    (keep2 : ∀ b : Ref sig .tc, (∀ w, Pipeline.arrRef spec2 w ≠ b) → W9 (Proc.devRef .tc b) = hostEntry2 W7 (Proc.devRef .tc b))
    (in2_v1 : bV1 W9 = bV1 (hostEntry2 W7)) (in2_v6 : bV6 W9 = bV6 (hostEntry2 W7)) (in2_v19 : bV19 W9 = bV19 (hostEntry2 W7))
    (fin2c : ∀ l, arr2 (bV24_0 W9) 0 l
      = Spec.colsumK (arr2 (bV1 (hostEntry2 W7))) (arr2 (bV6 (hostEntry2 W7))) l)
    (fin2p : ∀ l, arr2 (bV24_1 W9) 0 l
      = Spec.possumK (arr2 (bV1 (hostEntry2 W7))) (arr2 (bV6 (hostEntry2 W7))) (fun i => arr2 (bV19 (hostEntry2 W7)) i 0) l)
    (fin2r : ∀ i, arr2 (bV24_2 W9) i 0
      = Spec.p1K (arr2 (bV1 (hostEntry2 W7))) (arr2 (bV6 (hostEntry2 W7))) (fun i => arr2 (bV19 (hostEntry2 W7)) i 0) i)
    (keep3 : ∀ b : Ref sig .tc, (∀ w, Pipeline.arrRef spec3 w ≠ b) → W10 (Proc.devRef .tc b) = W9 (Proc.devRef .tc b))
    (fin3 : ∀ i, arr2 (bV25 W10) i 0
      = (0 - Spec.posK (arr2 (bV1 W9)) (arr2 (bV6 W9)) (fun i => arr2 (bV19 W9) i 0) i)
        + Ideal.log ((∑ l : Fin 64, Spec.hot (fun i => arr2 (bV19 W9) i 0) i l * (arr2 (bV24_0 W9) 0 l - arr2 (bV24_1 W9) 0 l))
          + Ideal.exp (Spec.posK (arr2 (bV1 W9)) (arr2 (bV6 W9)) (fun i => arr2 (bV19 W9) i 0) i))) :
    arr0 (bV33 (StableHlo.after hostOps4 W10))
      = Spec.resK (Spec.en (arr2 (bA0 W0)) (arr2 (bA1 W0)) (arr1 (bA2 W0))) (Spec.ln (arr2 (bA3 W0))) (arr1 (bA4 W0)) := by
  have a3_2 : bA3 W2 = bA3 W0 := (keep0 main_arg3 (by decide)).trans (host0_a3 W0)
  have a4_2 : bA4 W2 = bA4 W0 := (keep0 main_arg4 (by decide)).trans (host0_a4 W0)
  have hb : (fun e => arr2 (bV0 (hostEntry0 W0)) 0 e) = arr1 (bA2 W0) := funext fun e => host0_v0 W0 e
  have hen : arr2 (bV1 W2) = Spec.en (arr2 (bA0 W0)) (arr2 (bA1 W0)) (arr1 (bA2 W0)) := by
    funext i e
    rw [fin0 i e, hb, host0_a0, host0_a1]

  have hln : arr2 (bV6 (hostEntry1 W2)) = Spec.ln (arr2 (bA3 W0)) := by rw [hostEntry1_v6, a3_2]
  have hlab6 : (fun i => arr2 (bV19 (hostEntry1 W2)) i 0) = arr1 (bA4 W0) := by rw [hostEntry1_v19, a4_2]
  have hcneg : ∀ i, arr2 (bV18 (hostEntry1 W2)) i 0 = Spec.cnegK (arr1 (bA4 W0)) i := by
    intro i
    rw [hostEntry1_v18 W2 (by rw [a4_2]; exact hlab) i, a4_2]
  have hrowK : ∀ i, arr2 (bV21 W7) i 0
      = Spec.rowK (Spec.en (arr2 (bA0 W0)) (arr2 (bA1 W0)) (arr1 (bA2 W0))) (arr1 (bA4 W0)) i := by
    intro i
    rw [fin1 (hostEntry1_v20 W2) i, hlab6, hostEntry1_v1, hen, hcneg]
    unfold Spec.rowK
    rfl

  have v1_8 : bV1 (hostEntry2 W7) = bV1 W2 := (host2_v1 _).trans (in1_v1.trans (hostEntry1_v1 W2))
  have v6_8 : bV6 (hostEntry2 W7) = bV6 (hostEntry1 W2) := (host2_v6 _).trans (keep1 main_v6 (by decide))
  have v19_8 : bV19 (hostEntry2 W7) = bV19 (hostEntry1 W2) := (host2_v19 _).trans in1_v19
  have hen8 : arr2 (bV1 (hostEntry2 W7)) = Spec.en (arr2 (bA0 W0)) (arr2 (bA1 W0)) (arr1 (bA2 W0)) := by rw [v1_8]; exact hen
  have hln8 : arr2 (bV6 (hostEntry2 W7)) = Spec.ln (arr2 (bA3 W0)) := by rw [v6_8]; exact hln
  have hlab8 : (fun i => arr2 (bV19 (hostEntry2 W7)) i 0) = arr1 (bA4 W0) := by rw [v19_8]; exact hlab6
  have h23_8 : arr0 (bV23 (hostEntry2 W7))
      = Ideal.div (∑ i : Fin 8192, Spec.rowK (Spec.en (arr2 (bA0 W0)) (arr2 (bA1 W0)) (arr1 (bA2 W0))) (arr1 (bA4 W0)) i) Spec.c2p26 := by
    rw [host2_v23]; simp only [hrowK]

  have hen9 : arr2 (bV1 W9) = Spec.en (arr2 (bA0 W0)) (arr2 (bA1 W0)) (arr1 (bA2 W0)) := by rw [in2_v1]; exact hen8
  have hln9 : arr2 (bV6 W9) = Spec.ln (arr2 (bA3 W0)) := by rw [in2_v6]; exact hln8
  have hlab9 : (fun i => arr2 (bV19 W9) i 0) = arr1 (bA4 W0) := by rw [in2_v19]; exact hlab8
  have h23_9 : bV23 W9 = bV23 (hostEntry2 W7) := keep2 main_v23 (by decide)

  have h23_10 : bV23 W10 = bV23 W9 := keep3 main_v23 (by decide)
  have h242_10 : bV24_2 W10 = bV24_2 W9 := keep3 main_v24_2 (by decide)
  have hp2 : ∀ i, arr2 (bV25 W10) i 0
      = Spec.p2K (Spec.en (arr2 (bA0 W0)) (arr2 (bA1 W0)) (arr1 (bA2 W0))) (Spec.ln (arr2 (bA3 W0))) (arr1 (bA4 W0)) i := by
    intro i
    rw [fin3 i, hen9, hln9, hlab9]
    simp only [fin2c, fin2p, hen8, hln8, hlab8]
    unfold Spec.p2K
    rfl

  rw [host4_v33, h23_10, h23_9, h23_8, h242_10]
  simp only [fin2r, hp2, hen8, hln8, hlab8]
  unfold Spec.resK
  rfl

end Cert.KernelIdeal.Hand
end
-- ==== Proof.KI.R0Val.lean ====
import proofs.«400594_j19061064860124_1_alg».proof.Proof.KI.R0
import proofs.«400594_j19061064860124_1_alg».proof.Proof.KI.Spec
import proofs.«400594_j19061064860124_1_alg».proof.Proof.KI.Arr
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Arr
open Idealize.ShloMosaic Idealize.ShloMosaic.TcCoe Idealize.ShloMosaic.ValueIdx
open Idealize.SL Idealize.SL.Sem
open Idealize.ShloMosaic.Pipeline (Dat Cfg Window)
open scoped BigOperators

theorem lhs_mm0_0 (i : S1024x256.Idx) (q : dot_S1024x1024_S256x1024_S1024x256_1_1_0_0_n_n.contr.Idx) :
    (dot_S1024x1024_S256x1024_S1024x256_1_1_0_0_n_n.lhsIdx i q 0).val = (i 0).val := by
  unfold DotDims.lhsIdx
  rw [dif_neg (show ¬(0 : Fin S1024x1024.rank) ∈ dot_S1024x1024_S256x1024_S1024x256_1_1_0_0_n_n.lhsBatch by decide),
    dif_pos (show (0 : Fin S1024x1024.rank) ∈ dot_S1024x1024_S256x1024_S1024x256_1_1_0_0_n_n.lhsNonContracting by decide)]
  rfl
theorem lhs_mm0_1 (i : S1024x256.Idx) (q : dot_S1024x1024_S256x1024_S1024x256_1_1_0_0_n_n.contr.Idx) :
    (dot_S1024x1024_S256x1024_S1024x256_1_1_0_0_n_n.lhsIdx i q 1).val = (q ⟨0, by decide⟩).val :=
  dot_S1024x1024_S256x1024_S1024x256_1_1_0_0_n_n.lhsIdx_val_of_single rfl i q
theorem rhs_mm0_0 (i : S1024x256.Idx) (q : dot_S1024x1024_S256x1024_S1024x256_1_1_0_0_n_n.contr.Idx) :
    (dot_S1024x1024_S256x1024_S1024x256_1_1_0_0_n_n.rhsIdx i q 0).val = (i 1).val := by
  unfold DotDims.rhsIdx
  rw [dif_neg (show ¬(0 : Fin S256x1024.rank) ∈ dot_S1024x1024_S256x1024_S1024x256_1_1_0_0_n_n.rhsBatch by decide),
    dif_pos (show (0 : Fin S256x1024.rank) ∈ dot_S1024x1024_S256x1024_S1024x256_1_1_0_0_n_n.rhsNonContracting by decide)]
  rfl
theorem rhs_mm0_1 (i : S1024x256.Idx) (q : dot_S1024x1024_S256x1024_S1024x256_1_1_0_0_n_n.contr.Idx) :
    (dot_S1024x1024_S256x1024_S1024x256_1_1_0_0_n_n.rhsIdx i q 1).val = (q ⟨0, by decide⟩).val :=
  dot_S1024x1024_S256x1024_S1024x256_1_1_0_0_n_n.rhsIdx_val_of_single rfl i q

theorem mm0_apply (a : FVec Ideal S1024x1024 .bf16) (b : FVec Ideal S256x1024 .bf16) (r : Fin 1024) (e : Fin 256) :
    matmul dot_S1024x1024_S256x1024_S1024x256_1_1_0_0_n_n none a b (constant (F := Ideal) S1024x256 .f32 0x00000000#32) (ix2 r e)
      = ∑ k : Fin 1024, a (ix2 r k) * b (ix2 e k) := by
  show FloatOps.matmul _ none a b _ (ix2 r e) = _
  rw [Ideal.matmul_constant_zero_apply,
    ← Equiv.sum_comp (contrEquiv1 dot_S1024x1024_S256x1024_S1024x256_1_1_0_0_n_n 1024 rfl rfl).symm]
  refine Finset.sum_congr rfl fun k _ => ?_
  have hk := contrEquiv1_symm_val dot_S1024x1024_S256x1024_S1024x256_1_1_0_0_n_n 1024 rfl rfl k
  have el : dot_S1024x1024_S256x1024_S1024x256_1_1_0_0_n_n.lhsIdx (ix2 r e)
      ((contrEquiv1 dot_S1024x1024_S256x1024_S1024x256_1_1_0_0_n_n 1024 rfl rfl).symm k) = ix2 r k :=
    funext fun ax => Fin.ext (by
      match ax with
      | ⟨0, _⟩ => exact lhs_mm0_0 _ _
      | ⟨1, _⟩ => exact (lhs_mm0_1 _ _).trans hk)
  have er : dot_S1024x1024_S256x1024_S1024x256_1_1_0_0_n_n.rhsIdx (ix2 r e)
      ((contrEquiv1 dot_S1024x1024_S256x1024_S1024x256_1_1_0_0_n_n 1024 rfl rfl).symm k) = ix2 e k :=
    funext fun ax => Fin.ext (by
      match ax with
      | ⟨0, _⟩ => exact rhs_mm0_0 _ _
      | ⟨1, _⟩ => exact (rhs_mm0_1 _ _).trans hk)
  rw [el, er]

theorem bias0_apply (x2 : Vec Ideal S1x256 .f32) (r : Fin 1024) (e : Fin 256) :
    broadcastTo S1024x256 (shapeCast S1x256 x2 shapeCasts_S1x256_S1x256) broadcasts_S1x256_S1024x256 (ix2 r e) = x2 (ix2 0 e) := by
  rw [shapeCast_self]
  exact broadcastTo_apply x2 _ (ix2 r e) (ix2 0 e) (fun a => by match a with | ⟨0, _⟩ => rfl | ⟨1, _⟩ => rfl)

def embB0 (x0 : Vec Ideal S1024x1024 .f32) (x1 : Vec Ideal S256x1024 .f32) (x2 : Vec Ideal S1x256 .f32) (r : Fin 1024) (e : Fin 256) : EReal :=
  (∑ k : Fin 1024, x0 (ix2 r k) * x1 (ix2 e k)) + x2 (ix2 0 e)

def preB0 (x0 : Vec Ideal S1024x1024 .f32) (x1 : Vec Ideal S256x1024 .f32) (x2 : Vec Ideal S1x256 .f32) : FVec Ideal S1024x256 .f32 :=
  addf (matmul dot_S1024x1024_S256x1024_S1024x256_1_1_0_0_n_n none (truncf .bf16 x0 bitsLt_bf16_f32) (truncf .bf16 x1 bitsLt_bf16_f32)
      (constant (F := Ideal) S1024x256 .f32 0x00000000#32))
    (broadcastTo S1024x256 (shapeCast S1x256 x2 shapeCasts_S1x256_S1x256) broadcasts_S1x256_S1024x256)

theorem preB0_apply (x0 : Vec Ideal S1024x1024 .f32) (x1 : Vec Ideal S256x1024 .f32) (x2 : Vec Ideal S1x256 .f32) (r : Fin 1024) (e : Fin 256) :
    preB0 x0 x1 x2 (ix2 r e) = embB0 x0 x1 x2 r e := by
  unfold preB0 embB0
  refine (addf_apply _ _ (ix2 r e)).trans ?_
  rw [mm0_apply, bias0_apply]
  rfl

theorem sumsq0_apply (p : FVec Ideal S1024x256 .f32) (hacc : (0x00000000#32 : BitVec 32) = 0x00000000#32) (r : Fin 1024) :
    multiReduction (F := Ideal) .add [1] S1024 (mulf p p) 0x00000000#32 reduces_S1024x256_S1024 (.inl rfl) hacc (ix1 r)
      = ∑ e : Fin 256, p (ix2 r e) * p (ix2 r e) := by
  refine (Ideal.multiReduction_add_single (mulf p p) 0x00000000#32 reduces_S1024x256_S1024 (.inl rfl) hacc (ix1 r)).trans ?_
  refine Finset.sum_congr rfl fun k _ => ?_
  have hl : reduces_S1024x256_S1024.lift (ix1 r) k = ix2 r k :=
    funext fun a => Fin.ext (by match a with | ⟨0, _⟩ => rfl | ⟨1, _⟩ => rfl)
  rw [hl]; rfl

theorem col0_apply (v : FVec Ideal S1024 .f32) (r : Fin 1024) :
    shapeCast S1024x1 v shapeCasts_S1024_S1024x1 (ix2 r 0) = v (ix1 r) :=
  shapeCast_apply v _ (ix2 r 0) (ix1 r) (by
    rw [Shape.rowMajor_val_one, Shape.rowMajor_val_two]; show r.val = r.val * 1 + 0; omega)

theorem spread0_apply (v : FVec Ideal S1024x1 .f32) (r : Fin 1024) (e : Fin 256) :
    broadcastTo S1024x256 v broadcasts_S1024x1_S1024x256 (ix2 r e) = v (ix2 r 0) :=
  broadcastTo_apply v _ (ix2 r e) (ix2 r 0) (fun a => by match a with | ⟨0, _⟩ => rfl | ⟨1, _⟩ => rfl)

theorem pay0_apply (x0 : Vec Ideal S1024x1024 .f32) (x1 : Vec Ideal S256x1024 .f32) (x2 : Vec Ideal S1x256 .f32) (r : Fin 1024) (e : Fin 256) :
    k0_pay1 (F := Ideal) x0 x1 x2 (ix2 r e)
      = Ideal.div (embB0 x0 x1 x2 r e) (max (Ideal.sqrt (∑ e' : Fin 256, embB0 x0 x1 x2 r e' * embB0 x0 x1 x2 r e')) Spec.eps) := by
  show Ideal.div (preB0 x0 x1 x2 (ix2 r e))
      (broadcastTo S1024x256 (maximumf (sqrt (shapeCast S1024x1 (multiReduction (F := Ideal) .add [1] S1024 (mulf (preB0 x0 x1 x2) (preB0 x0 x1 x2)) 0x00000000#32 reduces_S1024x256_S1024 (.inl rfl) rfl) shapeCasts_S1024_S1024x1)) (broadcast S1024x1 (Scalar.ofBits (F := Ideal) .f32 0x322BCC77#32))) broadcasts_S1024x1_S1024x256 (ix2 r e)) = _
  rw [preB0_apply]
  refine congrArg (Ideal.div _) ?_
  refine (spread0_apply _ r e).trans ?_
  show max (Ideal.sqrt (shapeCast S1024x1 _ shapeCasts_S1024_S1024x1 (ix2 r 0))) Spec.eps = _
  refine congrArg (fun z => max (Ideal.sqrt z) Spec.eps) ?_
  refine (col0_apply _ r).trans ?_
  refine (sumsq0_apply _ rfl r).trans ?_
  simp only [preB0_apply]

variable (V : (c : Dev nD) → (b : Ref sig .tc) → Buf (Elt Ideal) ((c : Thread nD τ).loc b))

theorem zeros2_0 : (![0, 0] : Fin 2 → Nat) = fun _ => 0 := funext fun a => by fin_cases a <;> rfl

def G0 (c : Dev nD) : S8192x256.Idx → EReal := fun i =>
  Spec.en (arr2 (V c main_arg0)) (arr2 (V c main_arg1)) (fun e => arr2 (V c main_v0) 0 e) (i 0) (i 1)

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

def row0 (t : Fin cfg0.N) (r : Fin 1024) : Fin 8192 :=
  ⟨t.val * 1024 + r.val, by have h : t.val < grid0.N := t.isLt; rw [N_0] at h; have := r.isLt; omega⟩

theorem blkX0_apply (c : Dev nD) (t : Fin cfg0.N) (r : Fin 1024) (k : Fin 1024) :
    iblk0 V c 0 t (ix2 r k) = arr2 (V c main_arg0) (row0 t r) k := by
  show V c main_arg0 (((cfg0.win 0).blk t).view.emb (ix2 r k)) = V c main_arg0 (ix2 (row0 t r) k)
  refine congrArg (V c main_arg0) ?_
  obtain ⟨e0, e1, -⟩ := idx_facts0 t
  funext a; apply Fin.ext
  match a with
  | ⟨0, _⟩ => show win0_0.index t (0 : Fin 2) * 1024 + 1 * r.val = t.val * 1024 + r.val; rw [e0]; omega
  | ⟨1, _⟩ => show win0_0.index t (1 : Fin 2) * 1024 + 1 * k.val = k.val; rw [e1]; omega

theorem blkW0_apply (c : Dev nD) (t : Fin cfg0.N) (e : Fin 256) (k : Fin 1024) :
    iblk0 V c 1 t (ix2 e k) = arr2 (V c main_arg1) e k := by
  show V c main_arg1 (((cfg0.win 1).blk t).view.emb (ix2 e k)) = V c main_arg1 (ix2 e k)
  refine congrArg (V c main_arg1) ?_
  obtain ⟨-, -, e0, e1, -⟩ := idx_facts0 t
  funext a; apply Fin.ext
  match a with
  | ⟨0, _⟩ => show win0_1.index t (0 : Fin 2) * 256 + 1 * e.val = e.val; rw [e0]; omega
  | ⟨1, _⟩ => show win0_1.index t (1 : Fin 2) * 1024 + 1 * k.val = k.val; rw [e1]; omega

theorem blkB0_apply (c : Dev nD) (t : Fin cfg0.N) (e : Fin 256) :
    iblk0 V c 2 t (ix2 0 e) = arr2 (V c main_v0) 0 e := by
  show V c main_v0 (((cfg0.win 2).blk t).view.emb (ix2 0 e)) = V c main_v0 (ix2 0 e)
  refine congrArg (V c main_v0) ?_
  obtain ⟨-, -, -, -, e0, e1, -⟩ := idx_facts0 t
  funext a; apply Fin.ext
  match a with
  | ⟨0, _⟩ => show win0_2.index t (0 : Fin 2) * 1 + 1 * 0 = 0; rw [e0]
  | ⟨1, _⟩ => show win0_2.index t (1 : Fin 2) * 256 + 1 * e.val = e.val; rw [e1]; omega

theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero zeros2_0]
  simp only [View.ld_unit_zero (S := S1024x1024) zeros2_0, View.ld_unit_zero (S := S256x1024) zeros2_0, View.ld_unit_zero (S := S1x256) zeros2_0]
  funext j
  obtain ⟨r, e, rfl⟩ : ∃ (r : Fin 1024) (e : Fin 256), j = ix2 r e := ⟨j 0, j 1, eq_ix2 j⟩
  show k0_pay1 (F := Ideal) (iblk0 V c 0 t) (iblk0 V c 1 t) (iblk0 V c 2 t) (ix2 r e) = G0 V c (((cfg0.win 3).blk t).view.emb (ix2 r e))
  refine (pay0_apply _ _ _ r e).trans ?_
  have hi : ((cfg0.win 3).blk t).view.emb (ix2 r e) = ix2 (row0 t r) e := by
    obtain ⟨-, -, -, -, -, -, e0, e1⟩ := idx_facts0 t
    funext a; apply Fin.ext
    match a with
    | ⟨0, _⟩ => show win0_3.index t (0 : Fin 2) * 1024 + 1 * r.val = t.val * 1024 + r.val; rw [e0]; omega
    | ⟨1, _⟩ => show win0_3.index t (1 : Fin 2) * 256 + 1 * e.val = e.val; rw [e1]; omega
  rw [hi]
  show _ = Spec.en _ _ _ (row0 t r) e
  unfold Spec.en Spec.nrm Spec.emb embB0
  simp only [blkX0_apply, blkW0_apply, blkB0_apply]

theorem mem_blk0 (t : Fin cfg0.N) (i : S8192x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v1).slice (win0_3.rect t)).set ↔ _
  rw [View.set_slice_whole, Rect.mem_set_unit]
  exact Iff.rfl

theorem idx_onto0 : ∀ q : Fin 8, ∃ t : Fin cfg0.N, win0_3.index t = ![q.val, 0] :=
  (by decide +kernel : ∀ q : Fin 8, ∃ t : Fin grid0.N, win0_3.index t = ![q.val, 0])

theorem cover0 (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ := idx_onto0 ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

theorem final0 (c : Dev nD) (i : Fin 8192) (e : Fin 256) :
    arr2 ((dat0 (F := Ideal) V c).arrAt 3 cfg0.N) i e
      = Spec.en (arr2 (V c main_arg0)) (arr2 (V c main_arg1)) (fun e => arr2 (V c main_v0) 0 e) i e := by
  have h := (dat0 V c).arrAt_eq_of_cover 3 (G0 V c) (fun t _ => flushed0_eq V c t) (cover0)
  rw [arr2_def, h]
  rfl

end Cert.KernelIdeal.Hand

end
-- ==== Proof.KI.R1Val.lean ====
import proofs.«400594_j19061064860124_1_alg».proof.Proof.KI.R1
import proofs.«400594_j19061064860124_1_alg».proof.Proof.KI.Spec
import proofs.«400594_j19061064860124_1_alg».proof.Proof.KI.Arr
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.Arr
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem lhs_cos_0_r1 (i : S1024x1024.Idx) (k : dot_S1024x256_S1024x256_S1024x1024_1_1_0_0_n_n.contr.Idx) :
    (dot_S1024x256_S1024x256_S1024x1024_1_1_0_0_n_n.lhsIdx i k 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
theorem lhs_cos_1_r1 (i : S1024x1024.Idx) (k : dot_S1024x256_S1024x256_S1024x1024_1_1_0_0_n_n.contr.Idx) :
    (dot_S1024x256_S1024x256_S1024x1024_1_1_0_0_n_n.lhsIdx i k 1).val = (k ⟨0, by decide⟩).val :=
  dot_S1024x256_S1024x256_S1024x1024_1_1_0_0_n_n.lhsIdx_val_of_single rfl i k
theorem rhs_cos_0_r1 (i : S1024x1024.Idx) (k : dot_S1024x256_S1024x256_S1024x1024_1_1_0_0_n_n.contr.Idx) :
    (dot_S1024x256_S1024x256_S1024x1024_1_1_0_0_n_n.rhsIdx i k 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl
theorem rhs_cos_1_r1 (i : S1024x1024.Idx) (k : dot_S1024x256_S1024x256_S1024x1024_1_1_0_0_n_n.contr.Idx) :
    (dot_S1024x256_S1024x256_S1024x1024_1_1_0_0_n_n.rhsIdx i k 1).val = (k ⟨0, by decide⟩).val :=
  dot_S1024x256_S1024x256_S1024x1024_1_1_0_0_n_n.rhsIdx_val_of_single rfl i k

theorem cos_apply_r1 (a b : FVec Ideal S1024x256 .bf16) (r q : Fin 1024) :
    matmul dot_S1024x256_S1024x256_S1024x1024_1_1_0_0_n_n none a b (constant (F := Ideal) S1024x1024 .f32 0x00000000#32) (ix2 r q)
      = ∑ e : Fin 256, a (ix2 r e) * b (ix2 q e) := by
  show FloatOps.matmul _ none a b _ (ix2 r q) = _
  rw [Ideal.matmul_constant_zero_apply,
    ← Equiv.sum_comp (contrEquiv1 dot_S1024x256_S1024x256_S1024x1024_1_1_0_0_n_n 256 rfl rfl).symm]
  refine Finset.sum_congr rfl fun e _ => ?_
  have hk := contrEquiv1_symm_val dot_S1024x256_S1024x256_S1024x1024_1_1_0_0_n_n 256 rfl rfl e
  have el : dot_S1024x256_S1024x256_S1024x1024_1_1_0_0_n_n.lhsIdx (ix2 r q)
      ((contrEquiv1 dot_S1024x256_S1024x256_S1024x1024_1_1_0_0_n_n 256 rfl rfl).symm e) = ix2 r e :=
    funext fun ax => Fin.ext (by
      match ax with
      | ⟨0, _⟩ => exact lhs_cos_0_r1 _ _
      | ⟨1, _⟩ => exact (lhs_cos_1_r1 _ _).trans hk)
  have er : dot_S1024x256_S1024x256_S1024x1024_1_1_0_0_n_n.rhsIdx (ix2 r q)
      ((contrEquiv1 dot_S1024x256_S1024x256_S1024x1024_1_1_0_0_n_n 256 rfl rfl).symm e) = ix2 q e :=
    funext fun ax => Fin.ext (by
      match ax with
      | ⟨0, _⟩ => exact rhs_cos_0_r1 _ _
      | ⟨1, _⟩ => exact (rhs_cos_1_r1 _ _).trans hk)
  rw [el, er]

theorem pay2_apply_r1 (a b : Vec Ideal S1024x256 .bf16) (r q : Fin 1024) :
    k1_pay2 (F := Ideal) a b (ix2 r q) = ∑ e : Fin 256, a (ix2 r e) * b (ix2 q e) := by
  show matmul dot_S1024x256_S1024x256_S1024x1024_1_1_0_0_n_n none (shapeCast S1024x256 a shapeCasts_S1024x256_S1024x256)
      (shapeCast S1024x256 b shapeCasts_S1024x256_S1024x256) (constant (F := Ideal) S1024x1024 .f32 0x00000000#32) (ix2 r q) = _
  rw [shapeCast_self, shapeCast_self]
  exact cos_apply_r1 a b r q

theorem pay3_apply_r1 (l : Vec Ideal S1024x1 .i32) (lr : Vec Ideal S1x1024 .i32) (r q : Fin 1024) :
    k1_pay3 (F := Ideal) l lr (ix2 r q) = 1#1 ↔ l (ix2 r 0) = lr (ix2 0 q) := by
  show IntOp.cmpi .eq (broadcastTo S1024x1024 (shapeCast S1024x1 l shapeCasts_S1024x1_S1024x1) broadcasts_S1024x1_S1024x1024 (ix2 r q))
      (broadcastTo S1024x1024 (shapeCast S1x1024 lr shapeCasts_S1x1024_S1x1024) broadcasts_S1x1024_S1024x1024 (ix2 r q)) = 1#1 ↔ _
  rw [shapeCast_self, shapeCast_self, IntOp.cmpi_eq,
    broadcastTo_apply l _ (ix2 r q) (ix2 r 0) (fun a => by match a with | ⟨0, _⟩ => rfl | ⟨1, _⟩ => rfl),
    broadcastTo_apply lr _ (ix2 r q) (ix2 0 q) (fun a => by match a with | ⟨0, _⟩ => rfl | ⟨1, _⟩ => rfl)]

theorem rowsum_apply_r1 (x : FVec Ideal S1024x1024 .f32) (hφ : FKind.Formats .f32)
    (hacc : (0x00000000#32 : BitVec (FTy.f32).bits) = FKind.add.neutral .f32 hφ) (r : Fin 1024) :
    multiReduction (F := Ideal) .add [1] S1024 x 0x00000000#32 reduces_S1024x1024_S1024 hφ hacc (ix1 r)
      = ∑ q : Fin 1024, x (ix2 r q) := by
  refine (Ideal.multiReduction_add_single x 0x00000000#32 reduces_S1024x1024_S1024 hφ hacc (ix1 r)).trans ?_
  refine Finset.sum_congr rfl fun k _ => ?_
  have hl : reduces_S1024x1024_S1024.lift (ix1 r) k = ix2 r k :=
    funext fun a => Fin.ext (by match a with | ⟨0, _⟩ => rfl | ⟨1, _⟩ => rfl)
  rw [hl]; rfl

theorem col1_apply_r1 (v : FVec Ideal S1024 .f32) (r : Fin 1024) :
    shapeCast S1024x1 v shapeCasts_S1024_S1024x1 (ix2 r 0) = v (ix1 r) :=
  shapeCast_apply v _ (ix2 r 0) (ix1 r) (by
    rw [Shape.rowMajor_val_one, Shape.rowMajor_val_two]; show r.val = r.val * 1 + 0; omega)

theorem spread1_apply_r1 (v : FVec Ideal S1024x1 .f32) (r q : Fin 1024) :
    broadcastTo S1024x1024 v broadcasts_S1024x1_S1024x1024 (ix2 r q) = v (ix2 r 0) :=
  broadcastTo_apply v _ (ix2 r q) (ix2 r 0) (fun a => by match a with | ⟨0, _⟩ => rfl | ⟨1, _⟩ => rfl)

theorem and1_iff_r1 (x y : BitVec 1) : IntOp.andi x y = 1#1 ↔ x = 1#1 ∧ y = 1#1 := by
  rcases BitVec.eq_zero_or_eq_one x with rfl | rfl <;> rcases BitVec.eq_zero_or_eq_one y with rfl | rfl <;> decide

theorem word_lin_r1 (u v : ℕ) :
    IntOp.addi (Scalar.muli (BitVec.ofNat 32 u) 1024#32) (BitVec.ofNat 32 v) = BitVec.ofNat 32 (u * 1024 + v) := by
  show BitVec.ofNat 32 u * BitVec.ofNat 32 1024 + BitVec.ofNat 32 v = _
  rw [← BitVec.ofNat_mul, ← BitVec.ofNat_add]

theorem word_ne_iff_r1 (x y r q : ℕ) (hx : x < 8) (hy : y < 8) (hr : r < 1024) (hq : q < 1024) :
    IntOp.cmpi .ne (IntOp.addi (Scalar.muli (BitVec.ofNat 32 x) 1024#32) (BitVec.ofNat 32 r))
        (IntOp.addi (Scalar.muli (BitVec.ofNat 32 y) 1024#32) (BitVec.ofNat 32 q)) = 1#1
      ↔ x * 1024 + r ≠ y * 1024 + q := by
  rw [IntOp.cmpi_ne, word_lin_r1, word_lin_r1]
  constructor
  · intro h hh; exact h (by rw [hh])
  · intro h hh
    apply h
    have := congrArg BitVec.toNat hh
    rw [BitVec.toNat_ofNat, BitVec.toNat_ofNat] at this
    omega

theorem pay4_apply_r1 (r : Fin 1024) : k1_pay4 (F := Ideal) (ix2 r 0) = 0 := by
  show shapeCast S1024x1 (broadcast S1024x1 (Scalar.ofBits (F := Ideal) .f32 0x00000000#32)) shapeCasts_S1024x1_S1024x1 (ix2 r 0) = 0
  rw [shapeCast_self]
  exact Ideal.ofBits_zero_f32
theorem pay6_apply_r1 (r : Fin 1024) : k1_pay6 (F := Ideal) (ix2 r 0) = 0 := by
  show shapeCast S1024x1 (broadcast S1024x1 (Scalar.ofBits (F := Ideal) .f32 0x00000000#32)) shapeCasts_S1024x1_S1024x1 (ix2 r 0) = 0
  rw [shapeCast_self]
  exact Ideal.ofBits_zero_f32

theorem pay5_apply_r1 (a b : Vec Ideal S1024x256 .bf16) (l : Vec Ideal S1024x1 .i32) (lr : Vec Ideal S1x1024 .i32)
    (acc : Vec Ideal S1024x1 .f32) (r : Fin 1024) :
    k1_pay5 (F := Ideal) a b l lr acc (ix2 r 0)
      = acc (ix2 r 0) + ∑ q : Fin 1024, if l (ix2 r 0) = lr (ix2 0 q) then 0
          else Ideal.exp (∑ e : Fin 256, a (ix2 r e) * b (ix2 q e)) := by
  show shapeCast S1024x1 (addf acc (shapeCast S1024x1 (multiReduction (F := Ideal) .add [1] S1024
      (select (xori (k1_pay3 (F := Ideal) l lr) (constantI S1024x1024 1 1#1)) (exp (k1_pay2 (F := Ideal) a b))
        (broadcast S1024x1024 (Scalar.ofBits (F := Ideal) .f32 0x00000000#32)))
      0x00000000#32 reduces_S1024x1024_S1024 (.inl rfl) rfl) shapeCasts_S1024_S1024x1)) shapeCasts_S1024x1_S1024x1 (ix2 r 0) = _
  rw [shapeCast_self]
  refine (addf_apply _ _ (ix2 r 0)).trans ?_
  refine congrArg (acc (ix2 r 0) + ·) ?_
  refine (col1_apply_r1 _ r).trans ?_
  refine (rowsum_apply_r1 _ _ _ r).trans ?_
  refine Finset.sum_congr rfl fun q _ => ?_
  show Scalar.select (IntOp.xori (k1_pay3 (F := Ideal) l lr (ix2 r q)) 1#1) (Ideal.exp (k1_pay2 (F := Ideal) a b (ix2 r q)))
      (Ideal.ofBits .f32 0x00000000#32) = _
  rw [pay2_apply_r1, Ideal.ofBits_zero_f32]
  by_cases h : l (ix2 r 0) = lr (ix2 0 q)
  · rw [if_pos h, (pay3_apply_r1 l lr r q).mpr h, show IntOp.xori 1#1 1#1 = 0#1 from rfl, select_zero]
  · rw [if_neg h, eq_zero_of_ne_one (mt (pay3_apply_r1 l lr r q).mp h), show IntOp.xori 0#1 1#1 = 1#1 from rfl, select_one]

theorem pay7_apply_r1 (co : grid1.Coords) (a b : Vec Ideal S1024x256 .bf16) (l : Vec Ideal S1024x1 .i32) (lr : Vec Ideal S1x1024 .i32)
    (nacc acc : Vec Ideal S1024x1 .f32) (r : Fin 1024) :
    k1_pay7 (F := Ideal) co a b l lr nacc acc (ix2 r 0)
      = acc (ix2 r 0) + ∑ q : Fin 1024,
          if l (ix2 r 0) = lr (ix2 0 q) ∧ (co 0).val * 1024 + r.val ≠ (co 2).val * 1024 + q.val
          then (0 - ∑ e : Fin 256, a (ix2 r e) * b (ix2 q e))
            + Ideal.log (nacc (ix2 r 0) + Ideal.exp (∑ e : Fin 256, a (ix2 r e) * b (ix2 q e)))
          else 0 := by
  show shapeCast S1024x1 (addf acc (shapeCast S1024x1 (multiReduction (F := Ideal) .add [1] S1024 _
      0x00000000#32 reduces_S1024x1024_S1024 (.inl rfl) rfl) shapeCasts_S1024_S1024x1)) shapeCasts_S1024x1_S1024x1 (ix2 r 0) = _
  rw [shapeCast_self]
  refine (addf_apply _ _ (ix2 r 0)).trans ?_
  refine congrArg (acc (ix2 r 0) + ·) ?_
  refine (col1_apply_r1 _ r).trans ?_
  refine (rowsum_apply_r1 _ _ _ r).trans ?_
  refine Finset.sum_congr rfl fun q _ => ?_
  show Scalar.select (IntOp.andi (k1_pay3 (F := Ideal) l lr (ix2 r q))
        (IntOp.cmpi .ne
          (IntOp.addi (Scalar.muli (BitVec.ofNat 32 (co 0).val) 1024#32) (iota .tc S1024x1024 32 [0] iota_S1024x1024_d0_w32 (ix2 r q)))
          (IntOp.addi (Scalar.muli (BitVec.ofNat 32 (co 2).val) 1024#32) (iota .tc S1024x1024 32 [1] iota_S1024x1024_d1_w32 (ix2 r q)))))
      ((Ideal.ofBits .f32 0x00000000#32 - k1_pay2 (F := Ideal) a b (ix2 r q))
        + Ideal.log (broadcastTo S1024x1024 nacc broadcasts_S1024x1_S1024x1024 (ix2 r q) + Ideal.exp (k1_pay2 (F := Ideal) a b (ix2 r q))))
      (Ideal.ofBits .f32 0x00000000#32) = _
  rw [iota_single_apply, iota_single_apply, pay2_apply_r1, Ideal.ofBits_zero_f32, spread1_apply_r1]
  have hw := word_ne_iff_r1 (co 0).val (co 2).val r.val q.val (co 0).isLt (co 2).isLt r.isLt q.isLt
  by_cases hC : l (ix2 r 0) = lr (ix2 0 q) ∧ (co 0).val * 1024 + r.val ≠ (co 2).val * 1024 + q.val
  · rw [if_pos hC, (and1_iff_r1 _ _).mpr ⟨(pay3_apply_r1 l lr r q).mpr hC.1, hw.mpr hC.2⟩, select_one]
  · rw [if_neg hC, eq_zero_of_ne_one (fun h1 => hC ⟨(pay3_apply_r1 l lr r q).mp ((and1_iff_r1 _ _).mp h1).1, hw.mp ((and1_iff_r1 _ _).mp h1).2⟩),
      select_zero]

theorem pay1_apply_r1 (nacc cn pacc : Vec Ideal S1024x1 .f32) (r : Fin 1024) :
    k1_pay1 (F := Ideal) nacc cn pacc (ix2 r 0) = pacc (ix2 r 0) + cn (ix2 r 0) * Ideal.log (nacc (ix2 r 0) + Spec.one) := by
  show pacc (ix2 r 0) + shapeCast S1024x1 cn shapeCasts_S1024x1_S1024x1 (ix2 r 0)
      * Ideal.log (nacc (ix2 r 0) + Ideal.ofBits .f32 0x3F800000#32) = _
  rw [shapeCast_self]

theorem idx_facts1 : ∀ t : Fin cfg1.N,
    win1_0.index t (0 : Fin 2) = t.val / 16 ∧ win1_0.index t (1 : Fin 2) = 0
    ∧ win1_1.index t (0 : Fin 2) = t.val % 8 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = t.val % 8
    ∧ win1_4.index t (0 : Fin 2) = t.val / 16 ∧ win1_4.index t (1 : Fin 2) = 0
    ∧ win1_5.index t (0 : Fin 2) = t.val / 16 ∧ win1_5.index t (1 : Fin 2) = 0
    ∧ (grid1.coords t 0).val = t.val / 16 ∧ (grid1.coords t 2).val = t.val % 8 :=
  (by decide +kernel : ∀ t : Fin grid1.N, _)

def rowI_r1 (n : ℕ) (r : Fin 1024) : Fin 8192 :=
  ⟨(n / 16 % 8) * 1024 + r.val, by have := r.isLt; have := Nat.mod_lt (n / 16) (by decide : 0 < 8); omega⟩
def colJ_r1 (n : ℕ) (q : Fin 1024) : Fin 8192 :=
  ⟨(n % 8) * 1024 + q.val, by have := q.isLt; have := Nat.mod_lt n (by decide : 0 < 8); omega⟩

theorem colJ_congr_r1 {n m : ℕ} (h : n % 8 = m % 8) (q : Fin 1024) : colJ_r1 n q = colJ_r1 m q := Fin.ext (by show n % 8 * 1024 + q.val = m % 8 * 1024 + q.val; rw [h])
theorem colJ_gi_r1 (jt : Fin 8) (q : Fin 1024) : colJ_r1 jt.val q = Spec.gi jt q := Fin.ext (by show jt.val % 8 * 1024 + q.val = jt.val * 1024 + q.val; rw [Nat.mod_eq_of_lt jt.isLt])
theorem rowI_gi_r1 (it : Fin 8) (n : ℕ) (h : n / 16 = it.val) (r : Fin 1024) : rowI_r1 n r = Spec.gi it r := Fin.ext (by show n / 16 % 8 * 1024 + r.val = it.val * 1024 + r.val; rw [h, Nat.mod_eq_of_lt it.isLt])

theorem lt128_r1 (t : Fin cfg1.N) : t.val < 128 := lt_of_lt_of_eq t.isLt N_1

theorem blk0_apply_r1 (c : Dev nD) (t : Fin cfg1.N) (r : Fin 1024) (e : Fin 256) :
    B1_0 V c t (ix2 r e) = arr2 (V c main_v1) (rowI_r1 t.val r) e := by
  show V c main_v1 (((cfg1.win 0).blk t).view.emb (ix2 r e)) = V c main_v1 (ix2 (rowI_r1 t.val r) e)
  refine congrArg (V c main_v1) ?_
  obtain ⟨e0, e1, -⟩ := idx_facts1 t
  have ht := lt128_r1 t
  funext a; apply Fin.ext
  match a with
  | ⟨0, _⟩ => show win1_0.index t (0 : Fin 2) * 1024 + 1 * r.val = t.val / 16 % 8 * 1024 + r.val; rw [e0]; omega
  | ⟨1, _⟩ => show win1_0.index t (1 : Fin 2) * 256 + 1 * e.val = e.val; rw [e1]; omega

theorem blk1_apply_r1 (c : Dev nD) (t : Fin cfg1.N) (q : Fin 1024) (e : Fin 256) :
    B1_1 V c t (ix2 q e) = arr2 (V c main_v1) (colJ_r1 t.val q) e := by
  show V c main_v1 (((cfg1.win 1).blk t).view.emb (ix2 q e)) = V c main_v1 (ix2 (colJ_r1 t.val q) e)
  refine congrArg (V c main_v1) ?_
  obtain ⟨-, -, e0, e1, -⟩ := idx_facts1 t
  funext a; apply Fin.ext
  match a with
  | ⟨0, _⟩ => show win1_1.index t (0 : Fin 2) * 1024 + 1 * q.val = t.val % 8 * 1024 + q.val; rw [e0]; omega
  | ⟨1, _⟩ => show win1_1.index t (1 : Fin 2) * 256 + 1 * e.val = e.val; rw [e1]; omega

theorem blk2_apply_r1 (c : Dev nD) (t : Fin cfg1.N) (r : Fin 1024) :
    B1_2 V c t (ix2 r 0) = arr2 (V c main_v19) (rowI_r1 t.val r) 0 := by
  show V c main_v19 (((cfg1.win 2).blk t).view.emb (ix2 r 0)) = V c main_v19 (ix2 (rowI_r1 t.val r) 0)
  refine congrArg (V c main_v19) ?_
  obtain ⟨-, -, -, -, e0, e1, -⟩ := idx_facts1 t
  have ht := lt128_r1 t
  funext a; apply Fin.ext
  match a with
  | ⟨0, _⟩ => show win1_2.index t (0 : Fin 2) * 1024 + 1 * r.val = t.val / 16 % 8 * 1024 + r.val; rw [e0]; omega
  | ⟨1, _⟩ => show win1_2.index t (1 : Fin 2) * 1 + 1 * 0 = 0; rw [e1]

theorem blk3_apply_r1 (c : Dev nD) (t : Fin cfg1.N) (q : Fin 1024) :
    B1_3 V c t (ix2 0 q) = arr2 (V c main_v20) 0 (colJ_r1 t.val q) := by
  show V c main_v20 (((cfg1.win 3).blk t).view.emb (ix2 0 q)) = V c main_v20 (ix2 0 (colJ_r1 t.val q))
  refine congrArg (V c main_v20) ?_
  obtain ⟨-, -, -, -, -, -, e0, e1, -⟩ := idx_facts1 t
  funext a; apply Fin.ext
  match a with
  | ⟨0, _⟩ => show win1_3.index t (0 : Fin 2) * 1 + 1 * 0 = 0; rw [e0]
  | ⟨1, _⟩ => show win1_3.index t (1 : Fin 2) * 1024 + 1 * q.val = t.val % 8 * 1024 + q.val; rw [e1]; omega

theorem blk4_apply_r1 (c : Dev nD) (t : Fin cfg1.N) (r : Fin 1024) :
    B1_4 V c t (ix2 r 0) = arr2 (V c main_v18) (rowI_r1 t.val r) 0 := by
  show V c main_v18 (((cfg1.win 4).blk t).view.emb (ix2 r 0)) = V c main_v18 (ix2 (rowI_r1 t.val r) 0)
  refine congrArg (V c main_v18) ?_
  obtain ⟨-, -, -, -, -, -, -, -, e0, e1, -⟩ := idx_facts1 t
  have ht := lt128_r1 t
  funext a; apply Fin.ext
  match a with
  | ⟨0, _⟩ => show win1_4.index t (0 : Fin 2) * 1024 + 1 * r.val = t.val / 16 % 8 * 1024 + r.val; rw [e0]; omega
  | ⟨1, _⟩ => show win1_4.index t (1 : Fin 2) * 1 + 1 * 0 = 0; rw [e1]

abbrev enA_r1 (c : Dev nD) : Fin 8192 → Fin 256 → EReal := arr2 (V c main_v1)
abbrev labA_r1 (c : Dev nD) : Fin 8192 → BitVec 32 := fun i => arr2 (V c main_v19) i 0

abbrev LabRow_r1 (c : Dev nD) : Prop := ∀ j, V c main_v20 (ValueIdx.ix2 0 j) = V c main_v19 (ValueIdx.ix2 j 0)

def Tn_r1 (en : Fin 8192 → Fin 256 → EReal) (lab : Fin 8192 → BitVec 32) (i : Fin 8192) (j : ℕ) : EReal :=
  ∑ jj : Fin 1024, if lab i = lab (colJ_r1 j jj) then 0 else Ideal.exp (Spec.S en i (colJ_r1 j jj))

def Tp_r1 (en : Fin 8192 → Fin 256 → EReal) (lab : Fin 8192 → BitVec 32) (i : Fin 8192) (j : ℕ) : EReal :=
  ∑ jj : Fin 1024, if lab i = lab (colJ_r1 j jj) ∧ i ≠ colJ_r1 j jj
    then (0 - Spec.S en i (colJ_r1 j jj)) + Ideal.log (Spec.Nk en lab i + Ideal.exp (Spec.S en i (colJ_r1 j jj))) else 0

theorem step0_r1 (c : Dev nD) (hlabrow : LabRow_r1 V c) (t : Fin cfg1.N) (acc : Vec Ideal S1024x1 .f32) (r : Fin 1024) :
    k1_pay5 (F := Ideal) (B1_0 V c t) (B1_1 V c t) (B1_2 V c t) (B1_3 V c t) acc (ix2 r 0)
      = acc (ix2 r 0) + Tn_r1 (enA_r1 V c) (labA_r1 V c) (rowI_r1 t.val r) t.val := by
  rw [pay5_apply_r1]
  refine congrArg (acc (ix2 r 0) + ·) ?_
  unfold Tn_r1
  refine Finset.sum_congr rfl fun q _ => ?_
  have h3 : arr2 (V c main_v20) 0 (colJ_r1 t.val q) = arr2 (V c main_v19) (colJ_r1 t.val q) 0 := hlabrow (colJ_r1 t.val q)
  rw [blk2_apply_r1, blk3_apply_r1, h3]
  simp only [blk0_apply_r1, blk1_apply_r1]
  rfl

theorem step1_r1 (c : Dev nD) (hlabrow : LabRow_r1 V c) (t : Fin cfg1.N) (nacc acc : Vec Ideal S1024x1 .f32) (r : Fin 1024) :
    k1_pay7 (F := Ideal) (grid1.coords t) (B1_0 V c t) (B1_1 V c t) (B1_2 V c t) (B1_3 V c t) nacc acc (ix2 r 0)
      = acc (ix2 r 0) + ∑ q : Fin 1024,
          if labA_r1 V c (rowI_r1 t.val r) = labA_r1 V c (colJ_r1 t.val q) ∧ rowI_r1 t.val r ≠ colJ_r1 t.val q
          then (0 - Spec.S (enA_r1 V c) (rowI_r1 t.val r) (colJ_r1 t.val q))
            + Ideal.log (nacc (ix2 r 0) + Ideal.exp (Spec.S (enA_r1 V c) (rowI_r1 t.val r) (colJ_r1 t.val q)))
          else 0 := by
  rw [pay7_apply_r1]
  refine congrArg (acc (ix2 r 0) + ·) ?_
  refine Finset.sum_congr rfl fun q _ => ?_
  have h3 : arr2 (V c main_v20) 0 (colJ_r1 t.val q) = arr2 (V c main_v19) (colJ_r1 t.val q) 0 := hlabrow (colJ_r1 t.val q)
  rw [blk2_apply_r1, blk3_apply_r1, h3]
  simp only [blk0_apply_r1, blk1_apply_r1]
  obtain ⟨-, -, -, -, -, -, -, -, -, -, -, -, g0, g2⟩ := idx_facts1 t
  have ht := lt128_r1 t
  have hne : ((grid1.coords t 0).val * 1024 + r.val ≠ (grid1.coords t 2).val * 1024 + q.val) ↔ rowI_r1 t.val r ≠ colJ_r1 t.val q := by
    rw [g0, g2, Ne, Ne, Fin.ext_iff]
    show ¬ (t.val / 16 * 1024 + r.val = t.val % 8 * 1024 + q.val) ↔ ¬ (t.val / 16 % 8 * 1024 + r.val = t.val % 8 * 1024 + q.val)
    rw [Nat.mod_eq_of_lt (by omega : t.val / 16 < 8)]
  exact if_congr (and_congr Iff.rfl hne) rfl rfl

theorem nacc_run_r1 (c : Dev nD) (hlabrow : LabRow_r1 V c) (it : Fin 8) (r : Fin 1024) : ∀ m, m < 8 →
    nacc1 V c (16 * it.val + m + 1) (ix2 r 0) = ∑ j ∈ Finset.range (m + 1), Tn_r1 (enA_r1 V c) (labA_r1 V c) (Spec.gi it r) j
  | 0, _ => by
    have hit := it.isLt
    rw [nacc1_succ_first V c (16 * it.val + 0) (by omega), step0_r1 V c hlabrow, pay4_apply_r1, zero_add, Finset.sum_range_one]
    have hv : (pt1 (16 * it.val + 0)).val = 16 * it.val + 0 := Nat.mod_eq_of_lt (by omega)
    rw [hv, rowI_gi_r1 it _ (by omega) r]
    unfold Tn_r1; simp only [colJ_congr_r1 (show (16 * it.val + 0) % 8 = 0 % 8 by omega)]
  | m + 1, hm => by
    have hit := it.isLt
    have ih := nacc_run_r1 c hlabrow it r m (by omega)
    rw [show 16 * it.val + m + 1 = 16 * it.val + (m + 1) from rfl] at ih
    rw [nacc1_succ_add V c (16 * it.val + (m + 1)) (by omega) (by omega), step0_r1 V c hlabrow, ih,
      Finset.sum_range_succ _ (m + 1)]
    have hv : (pt1 (16 * it.val + (m + 1))).val = 16 * it.val + (m + 1) := Nat.mod_eq_of_lt (by omega)
    rw [hv, rowI_gi_r1 it _ (by omega) r]
    congr 1
    unfold Tn_r1; simp only [colJ_congr_r1 (show (16 * it.val + (m + 1)) % 8 = (m + 1) % 8 by omega)]

theorem nacc_keep_r1 (c : Dev nD) (it : Fin 8) : ∀ k, k ≤ 8 → nacc1 V c (16 * it.val + 8 + k) = nacc1 V c (16 * it.val + 8)
  | 0, _ => rfl
  | k + 1, hk => by
    have hit := it.isLt
    rw [show 16 * it.val + 8 + (k + 1) = (16 * it.val + 8 + k) + 1 from rfl, nacc1_succ_keep V c (16 * it.val + 8 + k) (by omega)]
    exact nacc_keep_r1 c it k (by omega)

theorem nacc_done_r1 (c : Dev nD) (hlabrow : LabRow_r1 V c) (it : Fin 8) (r : Fin 1024) (k : ℕ) (hk : k ≤ 8) :
    nacc1 V c (16 * it.val + 8 + k) (ix2 r 0) = Spec.Nk (enA_r1 V c) (labA_r1 V c) (Spec.gi it r) := by
  rw [nacc_keep_r1 V c it k hk, show 16 * it.val + 8 = 16 * it.val + 7 + 1 from rfl, nacc_run_r1 V c hlabrow it r 7 (by omega), Finset.sum_range]
  unfold Spec.Nk Tn_r1
  simp only [colJ_gi_r1]

theorem pacc_run_r1 (c : Dev nD) (hlabrow : LabRow_r1 V c) (it : Fin 8) (r : Fin 1024) : ∀ m, m < 8 →
    pacc1 V c (16 * it.val + 8 + m + 1) (ix2 r 0) = ∑ j ∈ Finset.range (m + 1), Tp_r1 (enA_r1 V c) (labA_r1 V c) (Spec.gi it r) j
  | 0, _ => by
    have hit := it.isLt
    rw [pacc1_succ_first V c (16 * it.val + 8 + 0) (by omega), step1_r1 V c hlabrow, pay6_apply_r1, zero_add, Finset.sum_range_one,
      nacc_done_r1 V c hlabrow it r 0 (by omega)]
    have hv : (pt1 (16 * it.val + 8 + 0)).val = 16 * it.val + 8 + 0 := Nat.mod_eq_of_lt (by omega)
    rw [hv, rowI_gi_r1 it _ (by omega) r]
    unfold Tp_r1; simp only [colJ_congr_r1 (show (16 * it.val + 8 + 0) % 8 = 0 % 8 by omega)]
  | m + 1, hm => by
    have hit := it.isLt
    have ih := pacc_run_r1 c hlabrow it r m (by omega)
    rw [show 16 * it.val + 8 + m + 1 = 16 * it.val + 8 + (m + 1) from rfl] at ih
    rw [pacc1_succ_add V c (16 * it.val + 8 + (m + 1)) (by omega), step1_r1 V c hlabrow, ih,
      Finset.sum_range_succ _ (m + 1), nacc_done_r1 V c hlabrow it r (m + 1) (by omega)]
    have hv : (pt1 (16 * it.val + 8 + (m + 1))).val = 16 * it.val + 8 + (m + 1) := Nat.mod_eq_of_lt (by omega)
    rw [hv, rowI_gi_r1 it _ (by omega) r]
    congr 1
    unfold Tp_r1; simp only [colJ_congr_r1 (show (16 * it.val + 8 + (m + 1)) % 8 = (m + 1) % 8 by omega)]

def G1 (c : Dev nD) : S8192x1.Idx → EReal := fun i =>
  Spec.Pk (enA_r1 V c) (labA_r1 V c) (i 0)
    + (arr2 (V c main_v18) (i 0) 0 : EReal) * Ideal.log (Spec.Nk (enA_r1 V c) (labA_r1 V c) (i 0) + Spec.one)

theorem flushed1_eq (c : Dev nD) (hlabrow : LabRow_r1 V c) (t : Fin cfg1.N) (hf : (cfg1.win 5).flush t = true) :
    (dat1 V c).flushed 5 t = ((cfg1.win 5).blk t).view.read (Elt Ideal) (G1 V c) := by
  have h15 : t.val % 16 = 15 := (flush1_5 t).mp hf
  have ht := lt128_r1 t
  show (cfg1.win 5).cut (grid1.coords t) ((dat1 V c).after 5 t) = _
  rw [after1_5]
  funext j
  obtain ⟨r, z, rfl⟩ : ∃ (r : Fin 1024) (z : Fin 1), j = ix2 r z := ⟨j 0, j 1, eq_ix2 j⟩
  obtain rfl : z = 0 := Subsingleton.elim _ _
  show k1_pay1 (F := Ideal) (nacc1 V c (t.val + 1)) (B1_4 V c t) (pacc1 V c (t.val + 1)) (ix2 r 0)
    = G1 V c (((cfg1.win 5).blk t).view.emb (ix2 r 0))
  have hi : ((cfg1.win 5).blk t).view.emb (ix2 r 0) = ix2 (rowI_r1 t.val r) 0 := by
    obtain ⟨-, -, -, -, -, -, -, -, -, -, e0, e1, -⟩ := idx_facts1 t
    funext a; apply Fin.ext
    match a with
    | ⟨0, _⟩ => show win1_5.index t (0 : Fin 2) * 1024 + 1 * r.val = t.val / 16 % 8 * 1024 + r.val; rw [e0]; omega
    | ⟨1, _⟩ => show win1_5.index t (1 : Fin 2) * 1 + 1 * 0 = 0; rw [e1]
  rw [hi, pay1_apply_r1, blk4_apply_r1]
  have hit : t.val / 16 < 8 := by omega
  have hn : t.val + 1 = 16 * (⟨t.val / 16, hit⟩ : Fin 8).val + 8 + 8 := by show t.val + 1 = 16 * (t.val / 16) + 8 + 8; omega
  have hp : t.val + 1 = 16 * (⟨t.val / 16, hit⟩ : Fin 8).val + 8 + 7 + 1 := by show t.val + 1 = 16 * (t.val / 16) + 8 + 7 + 1; omega
  rw [show nacc1 V c (t.val + 1) = nacc1 V c (16 * (⟨t.val / 16, hit⟩ : Fin 8).val + 8 + 8) from by rw [← hn],
    nacc_done_r1 V c hlabrow ⟨t.val / 16, hit⟩ r 8 le_rfl,
    show pacc1 V c (t.val + 1) = pacc1 V c (16 * (⟨t.val / 16, hit⟩ : Fin 8).val + 8 + 7 + 1) from by rw [← hp],
    pacc_run_r1 V c hlabrow ⟨t.val / 16, hit⟩ r 7 (by omega), Finset.sum_range, rowI_gi_r1 ⟨t.val / 16, hit⟩ t.val rfl r]
  unfold G1 Spec.Pk Tp_r1
  simp only [colJ_gi_r1]

theorem mem_blk1 (t : Fin cfg1.N) (i : S8192x1.Idx) :
    i ∈ ((cfg1.win 5).blk t).view.set ↔ ∀ a : Fin 2, win1_5.index t a * S1024x1.size a ≤ (i a).val ∧ (i a).val < win1_5.index t a * S1024x1.size a + S1024x1.size a := by
  show i ∈ ((View.whole main_v21).slice (win1_5.rect t)).set ↔ _
  rw [View.set_slice_whole, Rect.mem_set_unit]
  exact Iff.rfl

theorem cover1 (i : S8192x1.Idx) : ∃ t : Fin cfg1.N, (cfg1.win 5).flush t = true ∧ i ∈ ((cfg1.win 5).blk t).view.set := by
  have hi0 : (i 0).val < 8192 := (i 0).isLt
  have hi1 : (i 1).val < 1 := (i 1).isLt
  have hN : 16 * ((i 0).val / 1024) + 15 < cfg1.N := by rw [show cfg1.N = 128 from N_1]; omega
  obtain ⟨-, -, -, -, -, -, -, -, -, -, e0, e1, -⟩ := idx_facts1 ⟨16 * ((i 0).val / 1024) + 15, hN⟩
  refine ⟨⟨16 * ((i 0).val / 1024) + 15, hN⟩, (flush1_5 _).mpr (by show (16 * ((i 0).val / 1024) + 15) % 16 = 15; omega), ?_⟩
  rw [mem_blk1]
  intro a
  match a with
  | ⟨0, _⟩ =>
    show win1_5.index ⟨16 * ((i 0).val / 1024) + 15, hN⟩ (0 : Fin 2) * 1024 ≤ (i 0).val
      ∧ (i 0).val < win1_5.index ⟨16 * ((i 0).val / 1024) + 15, hN⟩ (0 : Fin 2) * 1024 + 1024
    rw [e0]; show (16 * ((i 0).val / 1024) + 15) / 16 * 1024 ≤ (i 0).val ∧ (i 0).val < (16 * ((i 0).val / 1024) + 15) / 16 * 1024 + 1024
    omega
  | ⟨1, _⟩ =>
    show win1_5.index ⟨16 * ((i 0).val / 1024) + 15, hN⟩ (1 : Fin 2) * 1 ≤ (i 1).val
      ∧ (i 1).val < win1_5.index ⟨16 * ((i 0).val / 1024) + 15, hN⟩ (1 : Fin 2) * 1 + 1
    rw [e1]; omega

theorem final1 (c : Dev nD) (hlabrow : ∀ j, V c main_v20 (ValueIdx.ix2 0 j) = V c main_v19 (ValueIdx.ix2 j 0)) (i : Fin 8192) :
    arr2 ((dat1 (F := Ideal) V c).arrAt 5 cfg1.N) i 0
      = Spec.Pk (arr2 (V c main_v1)) (fun i => arr2 (V c main_v19) i 0) i
        + (arr2 (V c main_v18) i 0 : EReal) * Ideal.log (Spec.Nk (arr2 (V c main_v1)) (fun i => arr2 (V c main_v19) i 0) i + Spec.one) := by
  have h := (dat1 V c).arrAt_eq_of_cover 5 (G1 V c) (flushed1_eq V c hlabrow) cover1
  rw [arr2_def, h]
  rfl

end Cert.KernelIdeal.Hand

end
-- ==== Proof.KI.R2Val.lean ====
import proofs.«400594_j19061064860124_1_alg».proof.Proof.KI.R2
import proofs.«400594_j19061064860124_1_alg».proof.Proof.KI.Spec
import proofs.«400594_j19061064860124_1_alg».proof.Proof.KI.Arr
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Hand

open Cert.KernelIdeal Cert.KernelIdeal.Gen Cert.Arr
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

section Pay2

theorem lhs2c_0 (i : S1024x64.Idx) (q : dot_S1024x256_S64x256_S1024x64_1_1_0_0_n_n.contr.Idx) :
    (dot_S1024x256_S64x256_S1024x64_1_1_0_0_n_n.lhsIdx i q 0).val = (i 0).val := by
  unfold DotDims.lhsIdx
  rw [dif_neg (show ¬(0 : Fin S1024x256.rank) ∈ dot_S1024x256_S64x256_S1024x64_1_1_0_0_n_n.lhsBatch by decide), dif_pos (show (0 : Fin S1024x256.rank) ∈ dot_S1024x256_S64x256_S1024x64_1_1_0_0_n_n.lhsNonContracting by decide)]
  rfl
theorem lhs2c_1 (i : S1024x64.Idx) (q : dot_S1024x256_S64x256_S1024x64_1_1_0_0_n_n.contr.Idx) :
    (dot_S1024x256_S64x256_S1024x64_1_1_0_0_n_n.lhsIdx i q 1).val = (q ⟨0, by decide⟩).val :=
  dot_S1024x256_S64x256_S1024x64_1_1_0_0_n_n.lhsIdx_val_of_single rfl i q
theorem rhs2c_0 (i : S1024x64.Idx) (q : dot_S1024x256_S64x256_S1024x64_1_1_0_0_n_n.contr.Idx) :
    (dot_S1024x256_S64x256_S1024x64_1_1_0_0_n_n.rhsIdx i q 0).val = (i 1).val := by
  unfold DotDims.rhsIdx
  rw [dif_neg (show ¬(0 : Fin S64x256.rank) ∈ dot_S1024x256_S64x256_S1024x64_1_1_0_0_n_n.rhsBatch by decide), dif_pos (show (0 : Fin S64x256.rank) ∈ dot_S1024x256_S64x256_S1024x64_1_1_0_0_n_n.rhsNonContracting by decide)]
  rfl
theorem rhs2c_1 (i : S1024x64.Idx) (q : dot_S1024x256_S64x256_S1024x64_1_1_0_0_n_n.contr.Idx) :
    (dot_S1024x256_S64x256_S1024x64_1_1_0_0_n_n.rhsIdx i q 1).val = (q ⟨0, by decide⟩).val :=
  dot_S1024x256_S64x256_S1024x64_1_1_0_0_n_n.rhsIdx_val_of_single rfl i q

variable (x0 : Vec Ideal S1024x256 .bf16) (x1 : Vec Ideal S64x256 .f32) (x2 : Vec Ideal S1024x1 .i32)

theorem pay2_3_apply (r : Fin 1024) (l : Fin 64) :
    k2_pay3 x0 x1 (ix2 r l) = ∑ e : Fin 256, x0 (ix2 r e) * x1 (ix2 l e) := by
  unfold k2_pay3
  simp only [matmul]
  rw [Ideal.matmul_constant_zero_apply, ← Equiv.sum_comp (ValueIdx.contrEquiv1 dot_S1024x256_S64x256_S1024x64_1_1_0_0_n_n 256 rfl rfl).symm]
  refine Finset.sum_congr rfl fun k _ => ?_
  have hk := ValueIdx.contrEquiv1_symm_val dot_S1024x256_S64x256_S1024x64_1_1_0_0_n_n 256 rfl rfl k
  have el : dot_S1024x256_S64x256_S1024x64_1_1_0_0_n_n.lhsIdx (ix2 r l) ((ValueIdx.contrEquiv1 dot_S1024x256_S64x256_S1024x64_1_1_0_0_n_n 256 rfl rfl).symm k) = ix2 r k := funext fun a => Fin.ext (by
    match a with
    | ⟨0, _⟩ => exact lhs2c_0 _ _
    | ⟨1, _⟩ => exact (lhs2c_1 _ _).trans hk)
  have er : dot_S1024x256_S64x256_S1024x64_1_1_0_0_n_n.rhsIdx (ix2 r l) ((ValueIdx.contrEquiv1 dot_S1024x256_S64x256_S1024x64_1_1_0_0_n_n 256 rfl rfl).symm k) = ix2 l k := funext fun a => Fin.ext (by
    match a with
    | ⟨0, _⟩ => exact rhs2c_0 _ _
    | ⟨1, _⟩ => exact (rhs2c_1 _ _).trans hk)
  rw [el, er, shapeCast_self, shapeCast_self]
  rfl

theorem pay2_4_apply (r : Fin 1024) (l : Fin 64) :
    k2_pay4 (F := Ideal) x2 (ix2 r l) = if x2 (ix2 r 0) = BitVec.ofNat 32 l.val then 1 else 0 := by
  unfold k2_pay4
  simp only [shapeCast_self]
  show FloatOps.sitofp .f32 ((IntOp.cmpi .eq (iota .tc S1024x64 32 [1] iota_S1024x64_d1_w32 (ix2 r l))
      (broadcastTo S1024x64 x2 broadcasts_S1024x1_S1024x64 (ix2 r l))).setWidth 32) = _
  rw [iota_single_apply, broadcastTo_apply x2 broadcasts_S1024x1_S1024x64 (ix2 r l) (ix2 r 0) (fun a => by
    match a with
    | ⟨0, _⟩ => rfl
    | ⟨1, _⟩ => rfl)]
  show FloatOps.sitofp .f32 ((IntOp.cmpi .eq (BitVec.ofNat 32 l.val) (x2 (ix2 r 0))).setWidth 32) = _
  by_cases h : x2 (ix2 r 0) = BitVec.ofNat 32 l.val
  · rw [if_pos h, StableHlo.Predicate.cmpi_eq_iff.mpr h.symm]
    show (((1#1 : BitVec 1).setWidth 32).toInt : ℝ) = (1 : EReal)
    norm_num
  · rw [if_neg h, ValueIdx.eq_zero_of_ne_one (fun hc => h (StableHlo.Predicate.cmpi_eq_iff.mp hc).symm)]
    show (((0#1 : BitVec 1).setWidth 32).toInt : ℝ) = (0 : EReal)
    norm_num

end Pay2

section Pay2b

variable (x0 : Vec Ideal S1024x256 .bf16) (x1 : Vec Ideal S64x256 .f32) (x2 : Vec Ideal S1024x1 .i32)

theorem lift2_row (r : Fin 1024) (l : Fin 64) : reduces_S1024x64_S1024.lift (ix1 r) l = ix2 r l := by
  funext a
  match a with
  | ⟨0, _⟩ => rfl
  | ⟨1, _⟩ => rfl

theorem lift2_col (l : Fin 64) (r : Fin 1024) : reduces_S1024x64_S64.lift (ix1 l) r = ix2 r l := by
  funext a
  match a with
  | ⟨0, _⟩ => rfl
  | ⟨1, _⟩ => rfl

theorem cast2_col {α : Type} (v : S1024.Idx → α) (r : Fin 1024) :
    shapeCast S1024x1 v shapeCasts_S1024_S1024x1 (ix2 r 0) = v (ix1 r) :=
  shapeCast_apply v shapeCasts_S1024_S1024x1 (ix2 r 0) (ix1 r) (by
    rw [Shape.rowMajor_val_one, Shape.rowMajor_val_two]; show r.val = r.val * 1 + 0; omega)

theorem cast2_row {α : Type} (v : S64.Idx → α) (l : Fin 64) :
    shapeCast S1x64 v shapeCasts_S64_S1x64 (ix2 0 l) = v (ix1 l) :=
  shapeCast_apply v shapeCasts_S64_S1x64 (ix2 0 l) (ix1 l) (by
    rw [Shape.rowMajor_val_one, Shape.rowMajor_val_two]; show l.val = 0 * 64 + l.val; omega)

theorem pay2_5_apply (r : Fin 1024) :
    k2_pay5 x0 x1 x2 (ix2 r 0) = ∑ l : Fin 64, k2_pay3 x0 x1 (ix2 r l) * k2_pay4 (F := Ideal) x2 (ix2 r l) := by
  unfold k2_pay5
  refine (cast2_col _ r).trans ?_
  refine (Ideal.multiReduction_add_single _ _ reduces_S1024x64_S1024 _ _ (ix1 r)).trans ?_
  refine Finset.sum_congr rfl fun (l : Fin 64) _ => ?_
  rw [lift2_row]
  rfl

theorem pay2_7_apply (r : Fin 1024) : k2_pay7 x0 x1 x2 (ix2 r 0) = Ideal.exp (k2_pay5 x0 x1 x2 (ix2 r 0)) := rfl

theorem pay2_8_apply (r : Fin 1024) :
    k2_pay8 x0 x1 x2 (ix2 r 0)
      = (0 - k2_pay5 x0 x1 x2 (ix2 r 0))
        + Ideal.log (((∑ l : Fin 64, Ideal.exp (k2_pay3 x0 x1 (ix2 r l))) - Ideal.exp (k2_pay5 x0 x1 x2 (ix2 r 0)))
            + Ideal.exp (k2_pay5 x0 x1 x2 (ix2 r 0))) := by
  have hs : shapeCast S1024x1 (multiReduction .add [1] S1024 (k2_pay6 x0 x1) 0x00000000#32 reduces_S1024x64_S1024 (.inl rfl) rfl) shapeCasts_S1024_S1024x1 (ix2 r 0)
      = ∑ l : Fin 64, Ideal.exp (k2_pay3 x0 x1 (ix2 r l)) := by
    refine (cast2_col _ r).trans ?_
    refine (Ideal.multiReduction_add_single _ _ reduces_S1024x64_S1024 _ _ (ix1 r)).trans ?_
    refine Finset.sum_congr rfl fun (l : Fin 64) _ => ?_
    rw [lift2_row]
    rfl
  unfold k2_pay8
  show (Ideal.ofBits .f32 0x00000000#32 - k2_pay5 x0 x1 x2 (ix2 r 0))
      + Ideal.log ((shapeCast S1024x1 (multiReduction .add [1] S1024 (k2_pay6 x0 x1) 0x00000000#32 reduces_S1024x64_S1024 (.inl rfl) rfl) shapeCasts_S1024_S1024x1 (ix2 r 0)
          - k2_pay7 x0 x1 x2 (ix2 r 0)) + k2_pay7 x0 x1 x2 (ix2 r 0)) = _
  rw [hs, Ideal.ofBits_zero_f32, pay2_7_apply]

theorem pay2_9_apply (l : Fin 64) :
    k2_pay9 x0 x1 x2 (ix2 0 l) = ∑ r : Fin 1024, k2_pay4 (F := Ideal) x2 (ix2 r l) * Ideal.exp (k2_pay5 x0 x1 x2 (ix2 r 0)) := by
  unfold k2_pay9
  refine (cast2_row _ l).trans ?_
  refine (Ideal.multiReduction_add_single _ _ reduces_S1024x64_S64 _ _ (ix1 l)).trans ?_
  refine Finset.sum_congr rfl fun (r : Fin 1024) _ => ?_
  rw [lift2_col]
  show k2_pay4 (F := Ideal) x2 (ix2 r l) * broadcastTo S1024x64 (k2_pay7 x0 x1 x2) broadcasts_S1024x1_S1024x64 (ix2 r l) = _
  rw [broadcastTo_apply (k2_pay7 x0 x1 x2) broadcasts_S1024x1_S1024x64 (ix2 r l) (ix2 r 0) (fun a => by
    match a with
    | ⟨0, _⟩ => rfl
    | ⟨1, _⟩ => rfl), pay2_7_apply]

theorem pay2_12_apply (acc : Vec Ideal S1x64 .f32) (l : Fin 64) :
    k2_pay12 x0 x1 acc (ix2 0 l) = acc (ix2 0 l) + ∑ r : Fin 1024, Ideal.exp (k2_pay3 x0 x1 (ix2 r l)) := by
  unfold k2_pay12
  show acc (ix2 0 l) + shapeCast S1x64 (multiReduction .add [0] S64 (k2_pay6 x0 x1) 0x00000000#32 reduces_S1024x64_S64 (.inl rfl) rfl) shapeCasts_S64_S1x64 (ix2 0 l) = _
  congr 1
  refine (cast2_row _ l).trans ?_
  refine (Ideal.multiReduction_add_single _ _ reduces_S1024x64_S64 _ _ (ix1 l)).trans ?_
  refine Finset.sum_congr rfl fun (r : Fin 1024) _ => ?_
  rw [lift2_col]
  rfl

theorem pay2_1_eq (v : FVec Ideal S1x64 .f32) : k2_pay1 v = v := by
  unfold k2_pay1; exact shapeCast_self _ _

theorem pay2_2_apply (v32 : FVec Ideal S1x64 .f32) (v41 : Vec Ideal S1x64 .f32) (j : S1x64.Idx) :
    k2_pay2 v32 v41 j = v41 j + v32 j := by
  unfold k2_pay2
  rw [shapeCast_self]
  rfl

theorem pay2_10_apply (j : S1x64.Idx) : k2_pay10 (F := Ideal) j = 0 := by
  unfold k2_pay10
  rw [shapeCast_self]
  exact Ideal.ofBits_zero_f32

theorem pay2_11_apply (j : S1x64.Idx) : k2_pay11 (F := Ideal) j = 0 := by
  unfold k2_pay11
  rw [shapeCast_self]
  exact Ideal.ofBits_zero_f32

end Pay2b

def tile2 (t : Fin cfg2.N) : Fin 8 := ⟨t.val, lt_of_lt_of_eq t.isLt N_2⟩

theorem idx2_0 : ∀ t : Fin cfg2.N, win2_0.index t 0 = t.val ∧ win2_0.index t 1 = 0 :=
  (by decide +kernel : ∀ t : Fin grid2.N, win2_0.index t 0 = t.val ∧ win2_0.index t 1 = 0)
theorem idx2_1 : ∀ t : Fin cfg2.N, win2_1.index t 0 = 0 ∧ win2_1.index t 1 = 0 :=
  (by decide +kernel : ∀ t : Fin grid2.N, win2_1.index t 0 = 0 ∧ win2_1.index t 1 = 0)
theorem idx2_2 : ∀ t : Fin cfg2.N, win2_2.index t 0 = t.val ∧ win2_2.index t 1 = 0 :=
  (by decide +kernel : ∀ t : Fin grid2.N, win2_2.index t 0 = t.val ∧ win2_2.index t 1 = 0)
theorem idx2_5 : ∀ t : Fin cfg2.N, win2_5.index t 0 = t.val ∧ win2_5.index t 1 = 0 :=
  (by decide +kernel : ∀ t : Fin grid2.N, win2_5.index t 0 = t.val ∧ win2_5.index t 1 = 0)

section Blocks

variable (c : Dev nD)

abbrev en2 : Fin 8192 → Fin 256 → EReal := arr2 (V c main_v1)
abbrev ln2 : Fin 64 → Fin 256 → EReal := arr2 (V c main_v6)
abbrev lab2 : Fin 8192 → BitVec 32 := fun i => arr2 (V c main_v19) i 0

theorem iblk2_0_apply (t : Fin cfg2.N) (r : Fin 1024) (e : Fin 256) :
    (iblk2 V c 0 t : Vec Ideal S1024x256 .bf16) (ix2 r e) = en2 V c (Spec.gi (tile2 t) r) e := by
  obtain ⟨h0, h1⟩ := idx2_0 t
  unfold iblk2
  rw [View.read_apply]
  show V c main_v1 _ = V c main_v1 _
  congr 1
  funext a
  apply Fin.ext
  match a with
  | ⟨0, _⟩ => show win2_0.index t 0 * 1024 + 1 * r.val = t.val * 1024 + r.val; rw [h0]; omega
  | ⟨1, _⟩ => show win2_0.index t 1 * 256 + 1 * e.val = e.val; rw [h1]; omega

theorem iblk2_1_apply (t : Fin cfg2.N) (l : Fin 64) (e : Fin 256) :
    (iblk2 V c 1 t : Vec Ideal S64x256 .f32) (ix2 l e) = ln2 V c l e := by
  obtain ⟨h0, h1⟩ := idx2_1 t
  unfold iblk2
  rw [View.read_apply]
  show V c main_v6 _ = V c main_v6 _
  congr 1
  funext a
  apply Fin.ext
  match a with
  | ⟨0, _⟩ => show win2_1.index t 0 * 64 + 1 * l.val = l.val; rw [h0]; omega
  | ⟨1, _⟩ => show win2_1.index t 1 * 256 + 1 * e.val = e.val; rw [h1]; omega

theorem iblk2_2_apply (t : Fin cfg2.N) (r : Fin 1024) :
    (iblk2 V c 2 t : Vec Ideal S1024x1 .i32) (ix2 r 0) = lab2 V c (Spec.gi (tile2 t) r) := by
  obtain ⟨h0, h1⟩ := idx2_2 t
  unfold iblk2
  rw [View.read_apply]
  show V c main_v19 _ = V c main_v19 _
  congr 1
  funext a
  apply Fin.ext
  match a with
  | ⟨0, _⟩ => show win2_2.index t 0 * 1024 + 1 * r.val = t.val * 1024 + r.val; rw [h0]; omega
  | ⟨1, _⟩ => show win2_2.index t 1 * 1 + 1 * 0 = 0; rw [h1]

theorem tileC2 (t : Fin cfg2.N) (r : Fin 1024) (l : Fin 64) :
    k2_pay3 (iblk2 V c 0 t) (iblk2 V c 1 t) (ix2 r l) = Spec.C (en2 V c) (ln2 V c) (Spec.gi (tile2 t) r) l := by
  refine (pay2_3_apply (iblk2 V c 0 t) (iblk2 V c 1 t) r l).trans ?_
  unfold Spec.C
  exact Finset.sum_congr rfl fun e _ => by rw [iblk2_0_apply, iblk2_1_apply]

theorem tileHot2 (t : Fin cfg2.N) (r : Fin 1024) (l : Fin 64) :
    k2_pay4 (F := Ideal) (iblk2 V c 2 t) (ix2 r l) = Spec.hot (lab2 V c) (Spec.gi (tile2 t) r) l := by
  refine (pay2_4_apply (iblk2 V c 2 t) r l).trans ?_
  unfold Spec.hot
  rw [iblk2_2_apply]

theorem tilePos2 (t : Fin cfg2.N) (r : Fin 1024) :
    k2_pay5 (iblk2 V c 0 t) (iblk2 V c 1 t) (iblk2 V c 2 t) (ix2 r 0) = Spec.posK (en2 V c) (ln2 V c) (lab2 V c) (Spec.gi (tile2 t) r) := by
  refine (pay2_5_apply (iblk2 V c 0 t) (iblk2 V c 1 t) (iblk2 V c 2 t) r).trans ?_
  unfold Spec.posK
  exact Finset.sum_congr rfl fun l _ => by rw [tileC2, tileHot2]

theorem tileP1 (t : Fin cfg2.N) (r : Fin 1024) :
    k2_pay8 (iblk2 V c 0 t) (iblk2 V c 1 t) (iblk2 V c 2 t) (ix2 r 0) = Spec.p1K (en2 V c) (ln2 V c) (lab2 V c) (Spec.gi (tile2 t) r) := by
  refine (pay2_8_apply (iblk2 V c 0 t) (iblk2 V c 1 t) (iblk2 V c 2 t) r).trans ?_
  have hsum : (∑ l : Fin 64, Ideal.exp (k2_pay3 (iblk2 V c 0 t) (iblk2 V c 1 t) (ix2 r l)))
      = ∑ l : Fin 64, Ideal.exp (Spec.C (en2 V c) (ln2 V c) (Spec.gi (tile2 t) r) l) :=
    Finset.sum_congr rfl fun l _ => by rw [tileC2]
  unfold Spec.p1K
  rw [tilePos2, hsum]

def colT2 (l : Fin 64) (t : Fin 8) : EReal := ∑ r : Fin 1024, Ideal.exp (Spec.C (en2 V c) (ln2 V c) (Spec.gi t r) l)
def posT2 (l : Fin 64) (t : Fin 8) : EReal :=
  ∑ r : Fin 1024, Spec.hot (lab2 V c) (Spec.gi t r) l * Ideal.exp (Spec.posK (en2 V c) (ln2 V c) (lab2 V c) (Spec.gi t r))

theorem tileCol2 (t : Fin cfg2.N) (acc : Vec Ideal S1x64 .f32) (l : Fin 64) :
    k2_pay12 (iblk2 V c 0 t) (iblk2 V c 1 t) acc (ix2 0 l) = acc (ix2 0 l) + colT2 V c l (tile2 t) := by
  refine (pay2_12_apply (iblk2 V c 0 t) (iblk2 V c 1 t) acc l).trans ?_
  unfold colT2
  congr 1
  exact Finset.sum_congr rfl fun r _ => by rw [tileC2]

theorem tilePosS2 (t : Fin cfg2.N) (l : Fin 64) :
    k2_pay9 (iblk2 V c 0 t) (iblk2 V c 1 t) (iblk2 V c 2 t) (ix2 0 l) = posT2 V c l (tile2 t) := by
  refine (pay2_9_apply (iblk2 V c 0 t) (iblk2 V c 1 t) (iblk2 V c 2 t) l).trans ?_
  unfold posT2
  exact Finset.sum_congr rfl fun r _ => by rw [tileHot2, tilePos2]

def colN2 (l : Fin 64) (n : ℕ) : EReal := if h : n < 8 then colT2 V c l ⟨n, h⟩ else 0
def posN2 (l : Fin 64) (n : ℕ) : EReal := if h : n < 8 then posT2 V c l ⟨n, h⟩ else 0

theorem colN2_tile (l : Fin 64) (t : Fin cfg2.N) : colT2 V c l (tile2 t) = colN2 V c l t.val := by
  unfold colN2; rw [dif_pos (lt_of_lt_of_eq t.isLt N_2)]; rfl
theorem posN2_tile (l : Fin 64) (t : Fin cfg2.N) : posT2 V c l (tile2 t) = posN2 V c l t.val := by
  unfold posN2; rw [dif_pos (lt_of_lt_of_eq t.isLt N_2)]; rfl

theorem acc2a_eq (l : Fin 64) : ∀ (n : ℕ) (h : n < cfg2.N),
    acc2a V c n h (ix2 0 l) = ∑ k ∈ Finset.range (n + 1), colN2 V c l k
  | 0, h => by
    rw [acc2a_zero, pay2_1_eq, tileCol2, pay2_10_apply, zero_add, colN2_tile, Finset.sum_range_one]
  | n + 1, h => by
    rw [acc2a_succ, pay2_1_eq, tileCol2, acc2a_eq l n, colN2_tile, Finset.sum_range_succ _ (n + 1)]

theorem acc2b_eq (l : Fin 64) : ∀ (n : ℕ) (h : n < cfg2.N),
    acc2b V c n h (ix2 0 l) = ∑ k ∈ Finset.range (n + 1), posN2 V c l k
  | 0, h => by
    rw [acc2b_zero, pay2_2_apply, tilePosS2, pay2_11_apply, zero_add, posN2_tile, Finset.sum_range_one]
  | n + 1, h => by
    rw [acc2b_succ, pay2_2_apply, tilePosS2, acc2b_eq l n, posN2_tile, Finset.sum_range_succ _ (n + 1)]

theorem colsum2_eq (l : Fin 64) : ∑ k ∈ Finset.range 8, colN2 V c l k = Spec.colsumK (en2 V c) (ln2 V c) l := by
  unfold Spec.colsumK
  rw [← Fin.sum_univ_eq_sum_range (fun k => colN2 V c l k) 8]
  exact Finset.sum_congr rfl fun t _ => by unfold colN2; rw [dif_pos t.isLt]; rfl

theorem possum2_eq (l : Fin 64) : ∑ k ∈ Finset.range 8, posN2 V c l k = Spec.possumK (en2 V c) (ln2 V c) (lab2 V c) l := by
  unfold Spec.possumK
  rw [← Fin.sum_univ_eq_sum_range (fun k => posN2 V c l k) 8]
  exact Finset.sum_congr rfl fun t _ => by unfold posN2; rw [dif_pos t.isLt]; rfl

end Blocks

section Finals

variable (c : Dev nD)

abbrev res2a : Buf (Elt Ideal) ((c : Thread nD τ).loc main_v24_0) := acc2a V c t2_7.val t2_7.isLt

abbrev res2b : Buf (Elt Ideal) ((c : Thread nD τ).loc main_v24_1) := acc2b V c t2_7.val t2_7.isLt

def res2p : Buf (Elt Ideal) ((c : Thread nD τ).loc main_v24_2) :=
  fun j => Spec.p1K (en2 V c) (ln2 V c) (lab2 V c) ⟨(j 0).val, ValueIdx.idx2_lt0 j⟩

theorem flushed2_3 (t : Fin cfg2.N) (hf : (cfg2.win 3).flush t = true) :
    (dat2 V c).flushed 3 t = ((cfg2.win 3).blk t).view.read (Elt Ideal) (res2a V c) := by
  have hN : cfg2.N = 8 := N_2
  have h7 : t.val = 7 := by have := (flush2_3 t).mp hf; have := t.isLt; omega
  obtain rfl : t = t2_7 := Fin.ext h7
  show (cfg2.win 3).cut (grid2.coords t2_7) ((dat2 V c).after 3 t2_7) = _
  rw [after2_3]
  have hz' : (fun a => win2_3.index t2_7 a * main_v24_0.ty.shape.size a) = fun _ => 0 := funext fun a => by fin_cases a <;> decide
  exact (Memref.read_access_unit_zero (Elt Ideal) main_v24_0 hz' (fun a => by rw [congrFun hz' a]; simp) (res2a V c)).symm

theorem flushed2_4 (t : Fin cfg2.N) (hf : (cfg2.win 4).flush t = true) :
    (dat2 V c).flushed 4 t = ((cfg2.win 4).blk t).view.read (Elt Ideal) (res2b V c) := by
  have hN : cfg2.N = 8 := N_2
  have h7 : t.val = 7 := by have := (flush2_4 t).mp hf; have := t.isLt; omega
  obtain rfl : t = t2_7 := Fin.ext h7
  show (cfg2.win 4).cut (grid2.coords t2_7) ((dat2 V c).after 4 t2_7) = _
  rw [after2_4]
  have hz' : (fun a => win2_4.index t2_7 a * main_v24_1.ty.shape.size a) = fun _ => 0 := funext fun a => by fin_cases a <;> decide
  exact (Memref.read_access_unit_zero (Elt Ideal) main_v24_1 hz' (fun a => by rw [congrFun hz' a]; simp) (res2b V c)).symm

theorem arrAt2_3 : (dat2 V c).arrAt 3 cfg2.N = res2a V c :=
  (dat2 V c).arrAt_eq_of_cover 3 (res2a V c) (flushed2_3 V c) fun i =>
    ⟨t2_7, (flush2_3 t2_7).mpr rfl, by
      show i ∈ ((View.whole main_v24_0).slice (win2_3.rect t2_7)).set
      rw [View.set_slice_whole, Rect.mem_set_unit]
      intro a
      have h0 : (i 0 : Nat) < 1 := (i 0).isLt
      have h1 : (i 1 : Nat) < 64 := (i 1).isLt
      match a with
      | ⟨0, _⟩ => show win2_3.index t2_7 0 * win2_3.size 0 ≤ (i 0 : Nat) ∧ (i 0 : Nat) < win2_3.index t2_7 0 * win2_3.size 0 + win2_3.xsize (grid2.coords t2_7) 0
                  rw [show win2_3.index t2_7 0 * win2_3.size 0 = 0 from by decide +kernel, show win2_3.xsize (grid2.coords t2_7) 0 = 1 from by decide +kernel]; omega
      | ⟨1, _⟩ => show win2_3.index t2_7 1 * win2_3.size 1 ≤ (i 1 : Nat) ∧ (i 1 : Nat) < win2_3.index t2_7 1 * win2_3.size 1 + win2_3.xsize (grid2.coords t2_7) 1
                  rw [show win2_3.index t2_7 1 * win2_3.size 1 = 0 from by decide +kernel, show win2_3.xsize (grid2.coords t2_7) 1 = 64 from by decide +kernel]; omega⟩

theorem arrAt2_4 : (dat2 V c).arrAt 4 cfg2.N = res2b V c :=
  (dat2 V c).arrAt_eq_of_cover 4 (res2b V c) (flushed2_4 V c) fun i =>
    ⟨t2_7, (flush2_4 t2_7).mpr rfl, by
      show i ∈ ((View.whole main_v24_1).slice (win2_4.rect t2_7)).set
      rw [View.set_slice_whole, Rect.mem_set_unit]
      intro a
      have h0 : (i 0 : Nat) < 1 := (i 0).isLt
      have h1 : (i 1 : Nat) < 64 := (i 1).isLt
      match a with
      | ⟨0, _⟩ => show win2_4.index t2_7 0 * win2_4.size 0 ≤ (i 0 : Nat) ∧ (i 0 : Nat) < win2_4.index t2_7 0 * win2_4.size 0 + win2_4.xsize (grid2.coords t2_7) 0
                  rw [show win2_4.index t2_7 0 * win2_4.size 0 = 0 from by decide +kernel, show win2_4.xsize (grid2.coords t2_7) 0 = 1 from by decide +kernel]; omega
      | ⟨1, _⟩ => show win2_4.index t2_7 1 * win2_4.size 1 ≤ (i 1 : Nat) ∧ (i 1 : Nat) < win2_4.index t2_7 1 * win2_4.size 1 + win2_4.xsize (grid2.coords t2_7) 1
                  rw [show win2_4.index t2_7 1 * win2_4.size 1 = 0 from by decide +kernel, show win2_4.xsize (grid2.coords t2_7) 1 = 64 from by decide +kernel]; omega⟩

theorem flushed2_5 (t : Fin cfg2.N) (hf : (cfg2.win 5).flush t = true) :
    (dat2 V c).flushed 5 t = ((cfg2.win 5).blk t).view.read (Elt Ideal) (res2p V c) := by
  obtain ⟨h0, h1⟩ := idx2_5 t
  show (cfg2.win 5).cut (grid2.coords t) ((dat2 V c).after 5 t) = _
  rw [after2_5]
  funext j
  obtain ⟨r, z, rfl⟩ : ∃ (r : Fin 1024) (z : Fin 1), j = ix2 r z := ⟨j 0, j 1, eq_ix2 j⟩
  obtain rfl : z = 0 := Subsingleton.elim _ _
  show k2_pay8 (F := Ideal) (iblk2 V c 0 t) (iblk2 V c 1 t) (iblk2 V c 2 t) (ix2 r 0)
    = res2p V c (((cfg2.win 5).blk t).view.emb (ix2 r 0))
  have hi : ((cfg2.win 5).blk t).view.emb (ix2 r 0) = ix2 (Spec.gi (tile2 t) r) 0 := by
    funext a; apply Fin.ext
    match a with
    | ⟨0, _⟩ => show win2_5.index t (0 : Fin 2) * 1024 + 1 * r.val = t.val * 1024 + r.val; rw [h0]; omega
    | ⟨1, _⟩ => show win2_5.index t (1 : Fin 2) * 1 + 1 * 0 = 0; rw [h1]
  rw [hi, tileP1 V c t r]
  rfl

theorem arrAt2_5 : (dat2 V c).arrAt 5 cfg2.N = res2p V c :=
  (dat2 V c).arrAt_eq_of_cover 5 (res2p V c) (flushed2_5 V c) fun i => by
    have hi0 : (i 0 : Nat) < 8192 := (i 0).isLt
    have hi1 : (i 1 : Nat) < 1 := (i 1).isLt
    have hN : cfg2.N = 8 := N_2
    let t : Fin cfg2.N := ⟨(i 0 : Nat) / 1024, by rw [hN]; omega⟩
    obtain ⟨h0, h1⟩ := idx2_5 t
    refine ⟨t, flush2_5 t, ?_⟩
    show i ∈ ((View.whole main_v24_2).slice (win2_5.rect t)).set
    rw [View.set_slice_whole, Rect.mem_set_unit]
    intro a
    match a with
    | ⟨0, _⟩ => show win2_5.index t 0 * 1024 ≤ (i 0 : Nat) ∧ (i 0 : Nat) < win2_5.index t 0 * 1024 + 1024
                rw [h0]; show (i 0 : Nat) / 1024 * 1024 ≤ (i 0 : Nat) ∧ (i 0 : Nat) < (i 0 : Nat) / 1024 * 1024 + 1024; omega
    | ⟨1, _⟩ => show win2_5.index t 1 * 1 ≤ (i 1 : Nat) ∧ (i 1 : Nat) < win2_5.index t 1 * 1 + 1
                rw [h1]; omega

end Finals

theorem final2_colsum (c : Dev nD) (l : Fin 64) :
    arr2 ((dat2 (F := Ideal) V c).arrAt 3 cfg2.N) 0 l
      = Spec.colsumK (arr2 (V c main_v1)) (arr2 (V c main_v6)) l := by
  rw [arrAt2_3]
  show acc2a V c t2_7.val t2_7.isLt (ix2 0 l) = _
  rw [acc2a_eq]
  exact colsum2_eq V c l

theorem final2_possum (c : Dev nD) (l : Fin 64) :
    arr2 ((dat2 (F := Ideal) V c).arrAt 4 cfg2.N) 0 l
      = Spec.possumK (arr2 (V c main_v1)) (arr2 (V c main_v6)) (fun i => arr2 (V c main_v19) i 0) l := by
  rw [arrAt2_4]
  show acc2b V c t2_7.val t2_7.isLt (ix2 0 l) = _
  rw [acc2b_eq]
  exact possum2_eq V c l

theorem final2_p1 (c : Dev nD) (i : Fin 8192) :
    arr2 ((dat2 (F := Ideal) V c).arrAt 5 cfg2.N) i 0
      = Spec.p1K (arr2 (V c main_v1)) (arr2 (V c main_v6)) (fun i => arr2 (V c main_v19) i 0) i := by
  rw [arrAt2_5]
  rfl

end Cert.KernelIdeal.Hand

end
-- ==== Proof.KI.R3Val.lean ====
import proofs.«400594_j19061064860124_1_alg».proof.Proof.KI.R3
import proofs.«400594_j19061064860124_1_alg».proof.Proof.KI.Spec
import proofs.«400594_j19061064860124_1_alg».proof.Proof.KI.Arr
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Arr
open Idealize.ShloMosaic Idealize.ShloMosaic.TcCoe Idealize.SL.Sem Idealize.ShloMosaic.ValueIdx
open Idealize.ShloMosaic.Pipeline (Dat)
open scoped BigOperators

theorem oneHot3_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · rw [if_pos h]; subst h; simp [IntOp.cmpi]
  · have hb : (a == b) = false := beq_eq_false_iff_ne.mpr h
    rw [if_neg h]; simp [IntOp.cmpi, hb]

theorem colCast3_apply {α : Type} (v : S1024.Idx → α) (h : S1024.ShapeCasts S1024x1) (p : Fin 1024) :
    shapeCast S1024x1 v h (ix2 p (0 : Fin 1)) = v (ix1 p) :=
  shapeCast_apply v h _ _ (by
    rw [Shape.rowMajor_val_two, Shape.rowMajor_val_one]
    show p.val = p.val * 1 + 0
    omega)

theorem colBcast3_apply {α : Type} (v : S1024x1.Idx → α) (h : S1024x1.Broadcasts S1024x64) (p : Fin 1024) (l : Fin 64) :
    broadcastTo S1024x64 v h (ix2 p l) = v (ix2 p (0 : Fin 1)) := by
  refine broadcastTo_apply v h (ix2 p l) (ix2 p (0 : Fin 1)) fun ax => ?_
  match ax with
  | ⟨0, _⟩ => rfl
  | ⟨1, _⟩ => rfl

theorem rowSum3_apply (src : FVec Ideal S1024x64 .f32) (hφ : FKind.Formats .f32)
    (hacc : (0x00000000#32 : BitVec 32) = 0x00000000#32) (p : Fin 1024) :
    multiReduction .add [1] S1024 src 0x00000000#32 reduces_S1024x64_S1024 hφ hacc (ix1 p) = ∑ l : Fin 64, src (ix2 p l) := by
  refine (Ideal.multiReduction_add_single src 0x00000000#32 reduces_S1024x64_S1024 hφ hacc (ix1 p)).trans ?_
  refine Finset.sum_congr rfl fun l _ => congrArg src ?_
  funext a; apply Fin.ext
  match a with
  | ⟨0, _⟩ => rfl
  | ⟨1, _⟩ => rfl

theorem lhs3_0 (i : S1024x64.Idx) (q : dot_S1024x256_S64x256_S1024x64_1_1_0_0_n_n.contr.Idx) :
    (dot_S1024x256_S64x256_S1024x64_1_1_0_0_n_n.lhsIdx i q 0).val = (i 0).val := by
  unfold DotDims.lhsIdx
  rw [dif_neg (show ¬(0 : Fin S1024x256.rank) ∈ dot_S1024x256_S64x256_S1024x64_1_1_0_0_n_n.lhsBatch by decide), dif_pos (show (0 : Fin S1024x256.rank) ∈ dot_S1024x256_S64x256_S1024x64_1_1_0_0_n_n.lhsNonContracting by decide)]
  rfl
theorem lhs3_1 (i : S1024x64.Idx) (q : dot_S1024x256_S64x256_S1024x64_1_1_0_0_n_n.contr.Idx) :
    (dot_S1024x256_S64x256_S1024x64_1_1_0_0_n_n.lhsIdx i q 1).val = (q ⟨0, by decide⟩).val :=
  dot_S1024x256_S64x256_S1024x64_1_1_0_0_n_n.lhsIdx_val_of_single rfl i q
theorem rhs3_0 (i : S1024x64.Idx) (q : dot_S1024x256_S64x256_S1024x64_1_1_0_0_n_n.contr.Idx) :
    (dot_S1024x256_S64x256_S1024x64_1_1_0_0_n_n.rhsIdx i q 0).val = (i 1).val := by
  unfold DotDims.rhsIdx
  rw [dif_neg (show ¬(0 : Fin S64x256.rank) ∈ dot_S1024x256_S64x256_S1024x64_1_1_0_0_n_n.rhsBatch by decide), dif_pos (show (0 : Fin S64x256.rank) ∈ dot_S1024x256_S64x256_S1024x64_1_1_0_0_n_n.rhsNonContracting by decide)]
  rfl
theorem rhs3_1 (i : S1024x64.Idx) (q : dot_S1024x256_S64x256_S1024x64_1_1_0_0_n_n.contr.Idx) :
    (dot_S1024x256_S64x256_S1024x64_1_1_0_0_n_n.rhsIdx i q 1).val = (q ⟨0, by decide⟩).val :=
  dot_S1024x256_S64x256_S1024x64_1_1_0_0_n_n.rhsIdx_val_of_single rfl i q

theorem blockProd3_apply (lhs : FVec Ideal S1024x256 .bf16) (rhs : FVec Ideal S64x256 .bf16) (p : Fin 1024) (l : Fin 64) :
    matmul dot_S1024x256_S64x256_S1024x64_1_1_0_0_n_n none lhs rhs (constant (F := Ideal) S1024x64 .f32 0x00000000#32) (ix2 p l)
      = ∑ e : Fin 256, lhs (ix2 p e) * rhs (ix2 l e) := by
  refine (Ideal.matmul_constant_zero_apply dot_S1024x256_S64x256_S1024x64_1_1_0_0_n_n none lhs rhs (ix2 p l)).trans ?_
  rw [← Equiv.sum_comp (contrEquiv1 dot_S1024x256_S64x256_S1024x64_1_1_0_0_n_n 256 rfl rfl).symm]
  refine Finset.sum_congr rfl fun k _ => ?_
  have hk := contrEquiv1_symm_val dot_S1024x256_S64x256_S1024x64_1_1_0_0_n_n 256 rfl rfl k
  have el : dot_S1024x256_S64x256_S1024x64_1_1_0_0_n_n.lhsIdx (ix2 p l) ((contrEquiv1 dot_S1024x256_S64x256_S1024x64_1_1_0_0_n_n 256 rfl rfl).symm k) = ix2 p k := funext fun a => Fin.ext (by
    match a with
    | ⟨0, _⟩ => exact lhs3_0 _ _
    | ⟨1, _⟩ => exact (lhs3_1 _ _).trans hk)
  have er : dot_S1024x256_S64x256_S1024x64_1_1_0_0_n_n.rhsIdx (ix2 p l) ((contrEquiv1 dot_S1024x256_S64x256_S1024x64_1_1_0_0_n_n 256 rfl rfl).symm k) = ix2 l k := funext fun a => Fin.ext (by
    match a with
    | ⟨0, _⟩ => exact rhs3_0 _ _
    | ⟨1, _⟩ => exact (rhs3_1 _ _).trans hk)
  rw [el, er]

def hotV3 (x2 : Vec Ideal S1024x1 .i32) : FVec Ideal S1024x64 .f32 :=
  sitofp .f32 (extui 32 (cmpi .eq (iota .tc S1024x64 32 [1] iota_S1024x64_d1_w32)
    (broadcastTo S1024x64 (shapeCast S1024x1 x2 shapeCasts_S1024x1_S1024x1) broadcasts_S1024x1_S1024x64)) natLt_1_32)

theorem hotV3_apply (x2 : Vec Ideal S1024x1 .i32) (p : Fin 1024) (l : Fin 64) :
    hotV3 x2 (ix2 p l) = if BitVec.ofNat 32 l.val = x2 (ix2 p (0 : Fin 1)) then 1 else 0 := by
  unfold hotV3
  rw [sitofp_apply, extui_apply]
  show FloatOps.sitofp (F := Ideal) .f32 ((IntOp.cmpi .eq (iota .tc S1024x64 32 [1] iota_S1024x64_d1_w32 (ix2 p l))
    (broadcastTo S1024x64 (shapeCast S1024x1 x2 shapeCasts_S1024x1_S1024x1) broadcasts_S1024x1_S1024x64 (ix2 p l))).setWidth 32) = _
  rw [iota_single_apply, shapeCast_self, colBcast3_apply]
  exact oneHot3_word _ _

def cosV3 (x0 : Vec Ideal S1024x256 .bf16) (x1 : Vec Ideal S64x256 .f32) : FVec Ideal S1024x64 .f32 :=
  matmul dot_S1024x256_S64x256_S1024x64_1_1_0_0_n_n none (shapeCast S1024x256 x0 shapeCasts_S1024x256_S1024x256 : FVec Ideal S1024x256 .bf16)
    (truncf .bf16 (shapeCast S64x256 x1 shapeCasts_S64x256_S64x256 : FVec Ideal S64x256 .f32) bitsLt_bf16_f32) (constant S1024x64 .f32 0x00000000#32)

theorem cosV3_apply (x0 : Vec Ideal S1024x256 .bf16) (x1 : Vec Ideal S64x256 .f32) (p : Fin 1024) (l : Fin 64) :
    cosV3 x0 x1 (ix2 p l) = ∑ e : Fin 256, x0 (ix2 p e) * x1 (ix2 l e) := by
  unfold cosV3
  rw [shapeCast_self, shapeCast_self]
  exact blockProd3_apply (x0 : FVec Ideal S1024x256 .bf16) _ p l

def posV3 (x0 : Vec Ideal S1024x256 .bf16) (x1 : Vec Ideal S64x256 .f32) (x2 : Vec Ideal S1024x1 .i32) : FVec Ideal S1024x1 .f32 :=
  shapeCast S1024x1 (multiReduction .add [1] S1024 (mulf (cosV3 x0 x1) (hotV3 x2)) 0x00000000#32 reduces_S1024x64_S1024 (.inl rfl) rfl)
    shapeCasts_S1024_S1024x1

theorem posV3_apply (x0 : Vec Ideal S1024x256 .bf16) (x1 : Vec Ideal S64x256 .f32) (x2 : Vec Ideal S1024x1 .i32) (p : Fin 1024) :
    posV3 x0 x1 x2 (ix2 p (0 : Fin 1))
      = ∑ l : Fin 64, (∑ e : Fin 256, x0 (ix2 p e) * x1 (ix2 l e)) * (if BitVec.ofNat 32 l.val = x2 (ix2 p (0 : Fin 1)) then 1 else 0) := by
  unfold posV3
  refine (colCast3_apply _ _ p).trans ?_
  refine (rowSum3_apply _ _ _ p).trans ?_
  refine Finset.sum_congr rfl fun l _ => ?_
  rw [mulf_apply, cosV3_apply, hotV3_apply]

def negV3 (x2 : Vec Ideal S1024x1 .i32) (x3 x4 : Vec Ideal S1x64 .f32) : FVec Ideal S1024x1 .f32 :=
  shapeCast S1024x1 (multiReduction .add [1] S1024
    (mulf (hotV3 x2) (broadcastTo S1024x64 (subf (shapeCast S1x64 x3 shapeCasts_S1x64_S1x64) (shapeCast S1x64 x4 shapeCasts_S1x64_S1x64)) broadcasts_S1x64_S1024x64))
    0x00000000#32 reduces_S1024x64_S1024 (.inl rfl) rfl) shapeCasts_S1024_S1024x1

theorem negV3_apply (x2 : Vec Ideal S1024x1 .i32) (x3 x4 : Vec Ideal S1x64 .f32) (p : Fin 1024) :
    negV3 x2 x3 x4 (ix2 p (0 : Fin 1))
      = ∑ l : Fin 64, (if BitVec.ofNat 32 l.val = x2 (ix2 p (0 : Fin 1)) then 1 else 0) * (x3 (ix2 (0 : Fin 1) l) - x4 (ix2 (0 : Fin 1) l)) := by
  unfold negV3
  refine (colCast3_apply _ _ p).trans ?_
  refine (rowSum3_apply _ _ _ p).trans ?_
  refine Finset.sum_congr rfl fun l _ => ?_
  rw [mulf_apply, hotV3_apply, broadcastTo_1b_ab_apply, subf_apply, shapeCast_self, shapeCast_self]

theorem payR3_eq (x0 : Vec Ideal S1024x256 .bf16) (x1 : Vec Ideal S64x256 .f32) (x2 : Vec Ideal S1024x1 .i32) (x3 x4 : Vec Ideal S1x64 .f32) :
    k3_pay1 x0 x1 x2 x3 x4
      = addf (subf (broadcast S1024x1 (Scalar.ofBits .f32 0x00000000#32)) (posV3 x0 x1 x2))
          (log (addf (negV3 x2 x3 x4) (exp (posV3 x0 x1 x2)))) := rfl

theorem payR3_apply (x0 : Vec Ideal S1024x256 .bf16) (x1 : Vec Ideal S64x256 .f32) (x2 : Vec Ideal S1024x1 .i32) (x3 x4 : Vec Ideal S1x64 .f32)
    (p : Fin 1024) :
    k3_pay1 x0 x1 x2 x3 x4 (ix2 p (0 : Fin 1))
      = (0 - posV3 x0 x1 x2 (ix2 p (0 : Fin 1)))
        + Ideal.log (negV3 x2 x3 x4 (ix2 p (0 : Fin 1)) + Ideal.exp (posV3 x0 x1 x2 (ix2 p (0 : Fin 1)))) := by
  rw [payR3_eq]
  show (Ideal.ofBits .f32 0x00000000#32 - posV3 x0 x1 x2 (ix2 p (0 : Fin 1))) + Ideal.log (negV3 x2 x3 x4 (ix2 p (0 : Fin 1)) + Ideal.exp (posV3 x0 x1 x2 (ix2 p (0 : Fin 1)))) = _
  rw [Ideal.ofBits_zero_f32]

variable (V : (c : Dev nD) → (b : Ref sig .tc) → Buf (Elt Ideal) ((c : Thread nD τ).loc b))

theorem hz3 : (![0, 0] : Fin 2 → Nat) = fun _ => 0 := funext fun a => by fin_cases a <;> rfl

def row3 (en : Fin 8192 → Fin 256 → EReal) (ln : Fin 64 → Fin 256 → EReal) (lab : Fin 8192 → BitVec 32)
    (colsum possum : Fin 64 → EReal) (i : Fin 8192) : EReal :=
  (0 - Spec.posK en ln lab i) + Ideal.log ((∑ l : Fin 64, Spec.hot lab i l * (colsum l - possum l)) + Ideal.exp (Spec.posK en ln lab i))

def G3 (c : Dev nD) : S8192x1.Idx → EReal := fun j =>
  row3 (arr2 (V c main_v1)) (arr2 (V c main_v6)) (fun i => arr2 (V c main_v19) i 0)
    (fun l => arr2 (V c main_v24_0) 0 l) (fun l => arr2 (V c main_v24_1) 0 l) ⟨(j 0).val, idx2_lt0 j⟩

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem lt8_3 (t : Fin cfg3.N) : t.val < 8 := lt_of_lt_of_eq t.isLt N_3

def grow3 (t : Fin cfg3.N) (p : Fin 1024) : Fin 8192 := ⟨t.val * 1024 + p.val, by have := lt8_3 t; have := p.isLt; omega⟩

theorem blk3_0 (c : Dev nD) (t : Fin cfg3.N) (p : Fin 1024) (e : Fin 256) :
    iblk3 V c 0 t (ix2 p e) = arr2 (V c main_v1) (grow3 t p) e := by
  obtain ⟨e0, e1, -⟩ := idx_facts3 t
  show V c main_v1 (((cfg3.win 0).blk t).view.emb (ix2 p e)) = V c main_v1 (ix2 (grow3 t p) e)
  refine congrArg (V c main_v1) (funext fun a => Fin.ext ?_)
  match a with
  | ⟨0, _⟩ => show win3_0.index t (0 : Fin 2) * 1024 + 1 * p.val = t.val * 1024 + p.val; omega
  | ⟨1, _⟩ => show win3_0.index t (1 : Fin 2) * 256 + 1 * e.val = e.val; omega

theorem blk3_1 (c : Dev nD) (t : Fin cfg3.N) (l : Fin 64) (e : Fin 256) :
    iblk3 V c 1 t (ix2 l e) = arr2 (V c main_v6) l e := by
  obtain ⟨-, -, e0, e1, -⟩ := idx_facts3 t
  show V c main_v6 (((cfg3.win 1).blk t).view.emb (ix2 l e)) = V c main_v6 (ix2 l e)
  refine congrArg (V c main_v6) (funext fun a => Fin.ext ?_)
  match a with
  | ⟨0, _⟩ => show win3_1.index t (0 : Fin 2) * 64 + 1 * l.val = l.val; omega
  | ⟨1, _⟩ => show win3_1.index t (1 : Fin 2) * 256 + 1 * e.val = e.val; omega

theorem blk3_2 (c : Dev nD) (t : Fin cfg3.N) (p : Fin 1024) :
    iblk3 V c 2 t (ix2 p (0 : Fin 1)) = arr2 (V c main_v19) (grow3 t p) 0 := by
  obtain ⟨-, -, -, -, e0, e1, -⟩ := idx_facts3 t
  show V c main_v19 (((cfg3.win 2).blk t).view.emb (ix2 p (0 : Fin 1))) = V c main_v19 (ix2 (grow3 t p) (0 : Fin 1))
  refine congrArg (V c main_v19) (funext fun a => Fin.ext ?_)
  match a with
  | ⟨0, _⟩ => show win3_2.index t (0 : Fin 2) * 1024 + 1 * p.val = t.val * 1024 + p.val; omega
  | ⟨1, _⟩ => show win3_2.index t (1 : Fin 2) * 1 + 1 * 0 = 0; omega

theorem blk3_3 (c : Dev nD) (t : Fin cfg3.N) (l : Fin 64) :
    iblk3 V c 3 t (ix2 (0 : Fin 1) l) = arr2 (V c main_v24_0) 0 l := by
  obtain ⟨-, -, -, -, -, -, e0, e1, -⟩ := idx_facts3 t
  show V c main_v24_0 (((cfg3.win 3).blk t).view.emb (ix2 (0 : Fin 1) l)) = V c main_v24_0 (ix2 (0 : Fin 1) l)
  refine congrArg (V c main_v24_0) (funext fun a => Fin.ext ?_)
  match a with
  | ⟨0, _⟩ => show win3_3.index t (0 : Fin 2) * 1 + 1 * 0 = 0; omega
  | ⟨1, _⟩ => show win3_3.index t (1 : Fin 2) * 64 + 1 * l.val = l.val; omega

theorem blk3_4 (c : Dev nD) (t : Fin cfg3.N) (l : Fin 64) :
    iblk3 V c 4 t (ix2 (0 : Fin 1) l) = arr2 (V c main_v24_1) 0 l := by
  obtain ⟨-, -, -, -, -, -, -, -, e0, e1, -⟩ := idx_facts3 t
  show V c main_v24_1 (((cfg3.win 4).blk t).view.emb (ix2 (0 : Fin 1) l)) = V c main_v24_1 (ix2 (0 : Fin 1) l)
  refine congrArg (V c main_v24_1) (funext fun a => Fin.ext ?_)
  match a with
  | ⟨0, _⟩ => show win3_4.index t (0 : Fin 2) * 1 + 1 * 0 = 0; omega
  | ⟨1, _⟩ => show win3_4.index t (1 : Fin 2) * 64 + 1 * l.val = l.val; omega

theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 (F := Ideal) V c).after 5 t) = _
  rw [after3_5]
  unfold out3_5
  rw [View.canon_unit_zero (S := S1024x1) hz3]
  simp only [View.ld_unit_zero (S := S1024x256) hz3, View.ld_unit_zero (S := S64x256) hz3, View.ld_unit_zero (S := S1024x1) hz3,
    View.ld_unit_zero (S := S1x64) hz3]
  funext j
  obtain ⟨p, q, rfl⟩ : ∃ (p : Fin 1024) (q : Fin 1), j = ix2 p q := ⟨j 0, j 1, eq_ix2 j⟩
  obtain rfl : q = 0 := Subsingleton.elim _ _
  obtain ⟨-, -, -, -, -, -, -, -, -, -, e0, e1⟩ := idx_facts3 t
  show k3_pay1 (iblk3 V c 0 t) (iblk3 V c 1 t) (iblk3 V c 2 t) (iblk3 V c 3 t) (iblk3 V c 4 t) (ix2 p (0 : Fin 1))
    = G3 V c (((cfg3.win 5).blk t).view.emb (ix2 p (0 : Fin 1)))
  have hrow : (⟨((((cfg3.win 5).blk t).view.emb (ix2 p (0 : Fin 1))) 0).val, idx2_lt0 _⟩ : Fin 8192) = grow3 t p :=
    Fin.ext (show win3_5.index t (0 : Fin 2) * 1024 + 1 * p.val = t.val * 1024 + p.val by omega)
  unfold G3
  rw [hrow, payR3_apply, posV3_apply, negV3_apply]
  unfold row3 Spec.posK Spec.C Spec.hot
  simp only [blk3_0, blk3_1, blk3_2, blk3_3, blk3_4]
  simp only [eq_comm (a := BitVec.ofNat 32 _)]

theorem mem_blk3 (t : Fin cfg3.N) (i : S8192x1.Idx) :
    i ∈ ((cfg3.win 5).blk t).view.set ↔ ∀ a : Fin 2, win3_5.index t a * S1024x1.size a ≤ (i a).val ∧ (i a).val < win3_5.index t a * S1024x1.size a + S1024x1.size a := by
  show i ∈ ((View.whole main_v25).slice (win3_5.rect t)).set ↔ _
  rw [View.set_slice_whole, Rect.mem_set_unit]
  exact Iff.rfl

theorem cover3 (i : S8192x1.Idx) : ∃ t : Fin cfg3.N, (cfg3.win 5).flush t = true ∧ i ∈ ((cfg3.win 5).blk t).view.set := by
  have hi0 : (i 0).val < 8192 := idx2_lt0 i
  have hi1 : (i 1).val < 1 := idx2_lt1 i
  let t : Fin cfg3.N := ⟨(i 0).val / 1024, lt_of_lt_of_eq (show (i 0).val / 1024 < 8 by omega) N_3.symm⟩
  obtain ⟨-, -, -, -, -, -, -, -, -, -, e0, e1⟩ := idx_facts3 t
  have ht : t.val = (i 0).val / 1024 := rfl
  refine ⟨t, flush3_5 t, ?_⟩
  rw [mem_blk3]
  intro a
  match a with
  | ⟨0, _⟩ => show win3_5.index t (0 : Fin 2) * 1024 ≤ (i 0).val ∧ (i 0).val < win3_5.index t (0 : Fin 2) * 1024 + 1024; omega
  | ⟨1, _⟩ => show win3_5.index t (1 : Fin 2) * 1 ≤ (i 1).val ∧ (i 1).val < win3_5.index t (1 : Fin 2) * 1 + 1; omega

theorem arrAt3 (c : Dev nD) : (dat3 (F := Ideal) V c).arrAt 5 cfg3.N = G3 V c :=
  (dat3 (F := Ideal) V c).arrAt_eq_of_cover 5 (G3 V c) (fun t _ => flushed3_eq V c t) cover3

theorem final3 (c : Dev nD) (i : Fin 8192) :
    arr2 ((dat3 (F := Ideal) V c).arrAt 5 cfg3.N) i 0
      = (0 - Spec.posK (arr2 (V c main_v1)) (arr2 (V c main_v6)) (fun i => arr2 (V c main_v19) i 0) i)
        + Ideal.log ((∑ l : Fin 64, Spec.hot (fun i => arr2 (V c main_v19) i 0) i l
              * ((arr2 (V c main_v24_0) 0 l : EReal) - (arr2 (V c main_v24_1) 0 l : EReal)))
            + Ideal.exp (Spec.posK (arr2 (V c main_v1)) (arr2 (V c main_v6)) (fun i => arr2 (V c main_v19) i 0) i)) := by
  rw [arr2_def, arrAt3]
  rfl

end Cert.KernelIdeal.Hand

end
-- ==== Proof.KI.HostRun.lean ====
import proofs.«400594_j19061064860124_1_alg».proof.Proof.KI.Run
import proofs.«400594_j19061064860124_1_alg».proof.Proof.KI.Host
import proofs.«400594_j19061064860124_1_alg».proof.Proof.KI.R0Val
import proofs.«400594_j19061064860124_1_alg».proof.Proof.KI.R1Val
import proofs.«400594_j19061064860124_1_alg».proof.Proof.KI.R2Val
import proofs.«400594_j19061064860124_1_alg».proof.Proof.KI.R3Val

set_option maxRecDepth 16384

noncomputable section

namespace Cert.KernelIdeal.Hand

open Cert.KernelIdeal Cert.KernelIdeal.Gen Cert.Arr
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg) (c : Dev nD)

abbrev kX : Fin 8192 → Fin 1024 → EReal := arr2 (m ((c.tc : Thread nD τ).loc main_arg0) : FVec Ideal S8192x1024 .f32)

abbrev kW : Fin 256 → Fin 1024 → EReal := arr2 (m ((c.tc : Thread nD τ).loc main_arg1) : FVec Ideal S256x1024 .f32)

abbrev kb : Fin 256 → EReal := arr1 (m ((c.tc : Thread nD τ).loc main_arg2) : FVec Ideal S256 .f32)

abbrev kLe : Fin 64 → Fin 256 → EReal := arr2 (m ((c.tc : Thread nD τ).loc main_arg3) : FVec Ideal S64x256 .f32)

abbrev klab : Fin 8192 → BitVec 32 := arr1 (m ((c.tc : Thread nD τ).loc main_arg4) : IVec S8192 32)

theorem out0_v1 : (W2 (F := Ideal) m ρ c (Proc.devRef .tc main_v1) : S8192x256.Idx → EReal) = (dat0 (F := Ideal) (Vin0 m ρ) c).arrAt 3 cfg0.N :=
  W2_arr m ρ c 3

theorem in1_v1 : bV1 (W7 (F := Ideal) m ρ c) = bV1 (W6 m ρ c) :=
  (W7_arr m ρ c 0).trans (arrAt1_0 m ρ c _)
theorem in1_v19 : bV19 (W7 (F := Ideal) m ρ c) = bV19 (W6 m ρ c) :=
  (W7_arr m ρ c 2).trans (((dat1 (Vin1 m ρ) c).arrAt_in 2 rfl _).trans (A_eq1 (Vin1 m ρ) c 2))

theorem out1_v21 : (W7 (F := Ideal) m ρ c (Proc.devRef .tc main_v21) : S8192x1.Idx → EReal) = (dat1 (F := Ideal) (Vin1 m ρ) c).arrAt 5 cfg1.N :=
  W7_arr m ρ c 5

theorem in2_v1 : bV1 (W9 (F := Ideal) m ρ c) = bV1 (W8 m ρ c) :=
  (W9_arr m ρ c 0).trans (((dat2 (Vin2 m ρ) c).arrAt_in 0 rfl _).trans (A_eq2 (Vin2 m ρ) c 0))
theorem in2_v6 : bV6 (W9 (F := Ideal) m ρ c) = bV6 (W8 m ρ c) :=
  (W9_arr m ρ c 1).trans (((dat2 (Vin2 m ρ) c).arrAt_in 1 rfl _).trans (A_eq2 (Vin2 m ρ) c 1))
theorem in2_v19 : bV19 (W9 (F := Ideal) m ρ c) = bV19 (W8 m ρ c) :=
  (W9_arr m ρ c 2).trans (((dat2 (Vin2 m ρ) c).arrAt_in 2 rfl _).trans (A_eq2 (Vin2 m ρ) c 2))
theorem out2_v24_0 : (W9 (F := Ideal) m ρ c (Proc.devRef .tc main_v24_0) : S1x64.Idx → EReal) = (dat2 (F := Ideal) (Vin2 m ρ) c).arrAt 3 cfg2.N :=
  W9_arr m ρ c 3
theorem out2_v24_1 : (W9 (F := Ideal) m ρ c (Proc.devRef .tc main_v24_1) : S1x64.Idx → EReal) = (dat2 (F := Ideal) (Vin2 m ρ) c).arrAt 4 cfg2.N :=
  W9_arr m ρ c 4
theorem out2_v24_2 : (W9 (F := Ideal) m ρ c (Proc.devRef .tc main_v24_2) : S8192x1.Idx → EReal) = (dat2 (F := Ideal) (Vin2 m ρ) c).arrAt 5 cfg2.N :=
  W9_arr m ρ c 5

theorem out3_v25 : (W10 (F := Ideal) m ρ c (Proc.devRef .tc main_v25) : S8192x1.Idx → EReal) = (dat3 (F := Ideal) (Vin3 m ρ) c).arrAt 5 cfg3.N :=
  W10_arr m ρ c 5

theorem host_value (hlab : ∀ i, (klab m c i).toNat < 64) :
    (W11 (F := Ideal) m ρ c (Proc.devRef .tc main_v33) : S_.Idx → EReal) ValueIdx.ix0
      = Cert.Spec.resK (Cert.Spec.en (kX m c) (kW m c) (kb m c)) (Cert.Spec.ln (kLe m c)) (klab m c) :=
  value_of_regions (W0 m ρ c) (W2 m ρ c) (W7 m ρ c) (W9 m ρ c) (W10 m ρ c) hlab
    (fun b hb => W2_of_ne m ρ c b hb)
    (fun i e => (congrArg (fun x : S8192x256.Idx → EReal => arr2 x i e) (out0_v1 m ρ c)).trans (final0 (Vin0 m ρ) c i e))
    (fun b hb => W7_of_ne m ρ c b hb)
    (in1_v1 m ρ c) (in1_v19 m ρ c)
    (fun hrow i => (congrArg (fun x : S8192x1.Idx → EReal => arr2 x i 0) (out1_v21 m ρ c)).trans (final1 (Vin1 m ρ) c hrow i))
    (fun b hb => W9_of_ne m ρ c b hb)
    (in2_v1 m ρ c) (in2_v6 m ρ c) (in2_v19 m ρ c)
    (fun l => (congrArg (fun x : S1x64.Idx → EReal => arr2 x 0 l) (out2_v24_0 m ρ c)).trans (final2_colsum (Vin2 m ρ) c l))
    (fun l => (congrArg (fun x : S1x64.Idx → EReal => arr2 x 0 l) (out2_v24_1 m ρ c)).trans (final2_possum (Vin2 m ρ) c l))
    (fun i => (congrArg (fun x : S8192x1.Idx → EReal => arr2 x i 0) (out2_v24_2 m ρ c)).trans (final2_p1 (Vin2 m ρ) c i))
    (fun b hb => W10_of_ne m ρ c b hb)
    (fun i => (congrArg (fun x : S8192x1.Idx → EReal => arr2 x i 0) (out3_v25 m ρ c)).trans (final3 (Vin3 m ρ) c i))

end Cert.KernelIdeal.Hand

end
-- ==== Proof.KI.RefStages.lean ====
import proofs.«400594_j19061064860124_1_alg».proof.Proof.KI.RefRead
import proofs.«400594_j19061064860124_1_alg».proof.Proof.KI.Spec
import proofs.«400594_j19061064860124_1_alg».proof.Proof.KI.Arr
import Idealize.ShloMosaic.Lib.StableHlo.Predicate
import Idealize.ShloMosaic.Lib.ValueIdx

noncomputable section

namespace Cert.ReferenceIdeal.Hand

open Cert.ReferenceIdeal Cert.ReferenceIdeal.Gen Cert.ReferenceIdeal.ReadP Idealize.ShloMosaic Idealize.ShloMosaic.StableHlo
open Idealize.ShloMosaic.ValueIdx Cert.Arr
open scoped BigOperators

theorem leaf2 {α : Type} {n0 n1 : Nat} (x : (⟨2, ![n0, n1]⟩ : Shape).Idx → α) (u : (⟨2, ![n0, n1]⟩ : Shape).Idx) :
    x u = arr2 x (u 0) (u 1) := congrArg x (eq_ix2 u)
theorem leaf1 {α : Type} {n : Nat} (x : (⟨1, ![n]⟩ : Shape).Idx → α) (u : (⟨1, ![n]⟩ : Shape).Idx) :
    x u = arr1 x (u 0) := congrArg x (eq_ix1 u)

variable (x0 : (⟨S8192x1024, .f32⟩ : BufTy).Contents (Elt Ideal)) (x1 : (⟨S256x1024, .f32⟩ : BufTy).Contents (Elt Ideal))
  (x2 : (⟨S256, .f32⟩ : BufTy).Contents (Elt Ideal)) (x3 : (⟨S64x256, .f32⟩ : BufTy).Contents (Elt Ideal))
  (x4 : (⟨S8192, .i32⟩ : BufTy).Contents (Elt Ideal))

abbrev cX : Fin 8192 → Fin 1024 → EReal := arr2 (x0 : FVec Ideal S8192x1024 .f32)
abbrev cW : Fin 256 → Fin 1024 → EReal := arr2 (x1 : FVec Ideal S256x1024 .f32)
abbrev cb : Fin 256 → EReal := arr1 (x2 : FVec Ideal S256 .f32)
abbrev cLe : Fin 64 → Fin 256 → EReal := arr2 (x3 : FVec Ideal S64x256 .f32)
abbrev clab : Fin 8192 → BitVec 32 := arr1 (x4 : IVec S8192 32)

abbrev cen : Fin 8192 → Fin 256 → EReal := Spec.en (cX x0) (cW x1) (cb x2)
abbrev cln : Fin 64 → Fin 256 → EReal := Spec.ln (cLe x3)

theorem emb_eq (j : S8192x256.Idx) :
    val_main_v4 (F := Ideal) x0 x1 x2 j = Spec.emb (cX x0) (cW x1) (cb x2) (j 0) (j 1) := by
  rw [val_main_v4_apply, val_main_v1_apply, val_main_v3_apply, val_main_v2_apply]
  simp only [val_main_v0_apply, leaf2 x0, leaf2 x1, leaf1 x2, Ideal.addf_def]
  rfl

theorem nrm_eq (j : S8192x1.Idx) :
    val_main_v7 (F := Ideal) x0 x1 x2 j = Spec.nrm (cX x0) (cW x1) (cb x2) (j 0) := by
  rw [val_main_v7_apply, val_main_v5_apply, val_main_call0_v2_apply, val_main_call0_v1_apply, val_main_v6_apply,
    val_main_cst_apply, val_main_call0_cst_apply]
  simp only [val_main_call0_v0_apply, emb_eq, Ideal.ofBits_def, Ideal.ofBits_zero_f32, zero_add, Ideal.maximumf_def,
    Ideal.hostUnary_sqrt_def, Ideal.mulf_def]
  rfl

theorem en_eq (j : S8192x256.Idx) : val_main_v9 (F := Ideal) x0 x1 x2 j = cen x0 x1 x2 (j 0) (j 1) := by
  rw [val_main_v9_apply, val_main_v8_apply, emb_eq, nrm_eq, Ideal.hostDivf_def]
  rfl

theorem lnrm_eq (j : S64x1.Idx) : val_main_v12 (F := Ideal) x3 j = Spec.lnrm (cLe x3) (j 0) := by
  rw [val_main_v12_apply, val_main_v10_apply, val_main_call1_v2_apply, val_main_call1_v1_apply, val_main_v11_apply,
    val_main_cst_0_apply, val_main_call1_cst_apply]
  simp only [val_main_call1_v0_apply, leaf2 x3, Ideal.ofBits_def, Ideal.ofBits_zero_f32, zero_add, Ideal.maximumf_def,
    Ideal.hostUnary_sqrt_def, Ideal.mulf_def]
  rfl

theorem ln_eq (j : S64x256.Idx) : val_main_v14 (F := Ideal) x3 j = cln x3 (j 0) (j 1) := by
  rw [val_main_v14_apply, val_main_v13_apply, lnrm_eq, leaf2 x3 j, Ideal.hostDivf_def]
  rfl

theorem S_eq (j : S8192x8192.Idx) :
    val_main_v16 (F := Ideal) x0 x1 x2 j = Spec.S (cen x0 x1 x2) (j 0) (j 1) := by
  rw [val_main_v16_apply]
  simp only [val_main_v15_apply, en_eq]
  rfl

theorem C_eq (j : S8192x64.Idx) :
    val_main_v18 (F := Ideal) x0 x1 x2 x3 j = Spec.C (cen x0 x1 x2) (cln x3) (j 0) (j 1) := by
  rw [val_main_v18_apply]
  simp only [val_main_v17_apply, en_eq, ln_eq]
  rfl

theorem same_iff (j : S8192x8192.Idx) :
    val_main_v23 (F := Ideal) x4 j = 1#1 ↔ clab x4 (j 0) = clab x4 (j 1) := by
  rw [val_main_v23_apply, val_main_v21_apply, val_main_v22_apply, val_main_v19_apply, val_main_v20_apply,
    Predicate.cmpi_eq_iff]
  simp only [leaf1 x4]
  exact Iff.rfl

end Cert.ReferenceIdeal.Hand

end
-- ==== Proof.KI.RefInter.lean ====
import proofs.«400594_j19061064860124_1_alg».proof.Proof.KI.RefRead
import proofs.«400594_j19061064860124_1_alg».proof.Proof.KI.Spec
import Idealize.ShloMosaic.Lib.ValueIdx
import Idealize.ShloMosaic.Lib.Affine
import Idealize.ShloMosaic.PureOps.Ideal.Laws

noncomputable section

namespace Cert.ReferenceIdeal.Hand

open Cert.ReferenceIdeal Cert.ReferenceIdeal.Gen Cert.ReferenceIdeal.ReadP Idealize.ShloMosaic Idealize.ShloMosaic.StableHlo
open Idealize.ShloMosaic.ValueIdx
open scoped BigOperators

variable (x0 : (⟨S8192x1024, .f32⟩ : BufTy).Contents (Elt Ideal)) (x1 : (⟨S256x1024, .f32⟩ : BufTy).Contents (Elt Ideal))
  (x2 : (⟨S256, .f32⟩ : BufTy).Contents (Elt Ideal)) (x4 : (⟨S8192, .i32⟩ : BufTy).Contents (Elt Ideal))

theorem not1_iff_ri (c : BitVec 1) : ~~~c = 1#1 ↔ ¬ c = 1#1 := by
  rcases BitVec.eq_zero_or_eq_one c with rfl | rfl <;> decide

theorem and1_iff_ri (a b : BitVec 1) : IntOp.andi a b = 1#1 ↔ a = 1#1 ∧ b = 1#1 := by
  rcases BitVec.eq_zero_or_eq_one a with rfl | rfl <;> rcases BitVec.eq_zero_or_eq_one b with rfl | rfl <;> decide

theorem sel_iff_ri {α : Type} {c : BitVec 1} {p : Prop} [Decidable p] (h : c = 1#1 ↔ p) (a b : α) :
    Scalar.select c a b = if p then a else b := by
  by_cases hp : p
  · exact (if_pos (h.2 hp)).trans (if_pos hp).symm
  · exact (if_neg (fun hc => hp (h.1 hc))).trans (if_neg hp).symm

theorem zero_word_ri : (FloatOps.ofBits (F := Ideal) .f32 0x00000000#32 : EReal) = 0 := Ideal.ofBits_zero_f32

theorem eye_iff_ri (j : S8192x8192.Idx) : val_main_v28 (F := Ideal) j = 1#1 ↔ (j 0).val = (j 1).val := by
  rw [val_main_v28_apply, val_main_v27_apply, val_main_v24_apply, val_main_v25_apply, val_main_v26_apply, val_main_c_apply, IntOp.cmpi_eq]
  show BitVec.ofNat 32 (j 0).val + 0#32 = BitVec.ofNat 32 (j 1).val ↔ _
  rw [BitVec.add_zero]
  have h0 : (j 0).val < 8192 := (j 0).isLt
  have h1 : (j 1).val < 8192 := (j 1).isLt
  constructor
  · intro h
    have := congrArg BitVec.toNat h
    rw [BitVec.toNat_ofNat, BitVec.toNat_ofNat] at this
    omega
  · intro h; rw [h]

theorem off_iff_ri (j : S8192x8192.Idx) : val_main_v29 (F := Ideal) j = 1#1 ↔ (j 0).val ≠ (j 1).val := by
  rw [val_main_v29_apply, not1_iff_ri, eye_iff_ri]

theorem Pm_if_ri (en : Fin 8192 → Fin 256 → EReal) (lab : Fin 8192 → BitVec 32) (i j : Fin 8192) :
    (if lab i = lab j ∧ i.val ≠ j.val then Spec.S en i j else 0) = Spec.Pm en lab i j := by
  unfold Spec.Pm
  exact if_congr (and_congr Iff.rfl Fin.val_ne_iff) rfl rfl

section Stages
variable (en : Fin 8192 → Fin 256 → EReal) (lab : Fin 8192 → BitVec 32)
  (hS : ∀ j : S8192x8192.Idx, val_main_v16 (F := Ideal) x0 x1 x2 j = Spec.S en (j 0) (j 1))
  (hsame : ∀ j : S8192x8192.Idx, val_main_v23 (F := Ideal) x4 j = 1#1 ↔ lab (j 0) = lab (j 1))
include hS hsame

theorem negterm_ri (j : S8192x8192.Idx) :
    val_main_v32 (F := Ideal) x0 x1 x2 x4 j = if lab (j 0) = lab (j 1) then 0 else Ideal.exp (Spec.S en (j 0) (j 1)) := by
  rw [val_main_v32_apply, val_main_v31_apply, val_main_v30_apply, val_main_call2_v1_apply, val_main_call2_v0_apply, val_main_cst_1_apply,
    zero_word_ri, Ideal.hostUnary_exp_def, hS,
    sel_iff_ri ((not1_iff_ri _).trans (not_congr (hsame j))), ite_not]

theorem Nr_eq_of (j : S8192.Idx) : val_main_v33 (F := Ideal) x0 x1 x2 x4 j = Spec.Nr en lab (j 0) := by
  rw [val_main_v33_apply, val_main_cst_2_apply, zero_word_ri, zero_add]
  unfold Spec.Nr
  refine Finset.sum_congr rfl fun k _ => ?_
  rw [negterm_ri x0 x1 x2 x4 en lab hS hsame]
  rfl

theorem Pm_eq_ri (j : S8192x8192.Idx) : val_main_v35 (F := Ideal) x0 x1 x2 x4 j = Spec.Pm en lab (j 0) (j 1) := by
  rw [val_main_v35_apply, val_main_v34_apply, val_main_call3_v1_apply, val_main_call3_v0_apply, val_main_cst_3_apply, zero_word_ri, hS,
    sel_iff_ri ((and1_iff_ri _ _).trans (and_congr (hsame j) (off_iff_ri j)))]
  exact Pm_if_ri en lab (j 0) (j 1)

theorem term_ri (j : S8192x8192.Idx) :
    val_main_v42 (F := Ideal) x0 x1 x2 x4 j
      = (-(Spec.Pm en lab (j 0) (j 1))) + Ideal.log (Spec.Nr en lab (j 0) + Ideal.exp (Spec.Pm en lab (j 0) (j 1))) := by
  rw [val_main_v42_apply, val_main_v36_apply, val_main_v41_apply, val_main_v40_apply, val_main_v39_apply, val_main_v37_apply,
    val_main_v38_apply, Ideal.hostUnary_log_def, Ideal.hostUnary_exp_def, Pm_eq_ri x0 x1 x2 x4 en lab hS hsame,
    Nr_eq_of x0 x1 x2 x4 en lab hS hsame]
  rfl

theorem offterm_ri (j : S8192x8192.Idx) :
    val_main_v43 (F := Ideal) x0 x1 x2 x4 j
      = if (j 0).val ≠ (j 1).val
        then (-(Spec.Pm en lab (j 0) (j 1))) + Ideal.log (Spec.Nr en lab (j 0) + Ideal.exp (Spec.Pm en lab (j 0) (j 1))) else 0 := by
  rw [val_main_v43_apply, val_main_call4_v1_apply, val_main_call4_v0_apply, val_main_cst_4_apply, zero_word_ri,
    term_ri x0 x1 x2 x4 en lab hS hsame, sel_iff_ri (off_iff_ri j)]

theorem inter_eq_of (i : S_.Idx) : val_main_v45 (F := Ideal) x0 x1 x2 x4 i = Spec.interR en lab := by
  rw [val_main_v45_apply, val_main_v44_apply, val_main_cst_5_apply, val_main_cst_6_apply, zero_word_ri, zero_add, Ideal.hostDivf_def,
    sum_idx2]
  unfold Spec.interR
  refine congrArg (fun z => Ideal.div z _) ?_
  refine Finset.sum_congr rfl fun a _ => Finset.sum_congr rfl fun b _ => ?_
  rw [offterm_ri x0 x1 x2 x4 en lab hS hsame]
  exact if_congr (Fin.val_ne_iff (a := a) (b := b)) rfl rfl

end Stages

end Cert.ReferenceIdeal.Hand

end
-- ==== Proof.KI.RefLib.lean ====
import proofs.«400594_j19061064860124_1_alg».proof.Proof.Gen.ReferenceIdeal
import Idealize.ShloMosaic.Lib.StableHlo.Predicate
import Idealize.ShloMosaic.Lib.ValueIdx
import Idealize.ShloMosaic.PureOps.Reduce

namespace Cert.ReferenceIdeal.Hand

open Cert.ReferenceIdeal Cert.ReferenceIdeal.Gen Idealize.ShloMosaic Idealize.ShloMosaic.StableHlo
open Idealize.ShloMosaic.ValueIdx

theorem select_of_iff {α : Type} {c : BitVec 1} {p : Prop} [Decidable p] (h : c = 1#1 ↔ p) (a b : α) :
    Scalar.select c a b = if p then a else b := by
  by_cases hp : p
  · exact (if_pos (h.2 hp)).trans (if_pos hp).symm
  · exact (if_neg (fun hc => hp (h.1 hc))).trans (if_neg hp).symm

theorem not_eq_one_iff (c : BitVec 1) : ~~~c = 1#1 ↔ ¬ c = 1#1 := by
  by_cases h : c = 1#1
  · subst h; decide
  · have := eq_zero_of_ne_one h; subst this; decide

theorem andi_eq_one_iff (a b : BitVec 1) : IntOp.andi a b = 1#1 ↔ a = 1#1 ∧ b = 1#1 := by
  by_cases ha : a = 1#1
  · subst ha
    by_cases hb : b = 1#1
    · subst hb; decide
    · have := eq_zero_of_ne_one hb; subst this; decide
  · have := eq_zero_of_ne_one ha; subst this
    by_cases hb : b = 1#1
    · subst hb; decide
    · have := eq_zero_of_ne_one hb; subst this; decide

theorem ofNat_eq_iff {i j : Nat} (hi : i < 2 ^ 32) (hj : j < 2 ^ 32) : BitVec.ofNat 32 i = BitVec.ofNat 32 j ↔ i = j := by
  constructor
  · intro h
    have := congrArg BitVec.toNat h
    rw [BitVec.toNat_ofNat, BitVec.toNat_ofNat, Nat.mod_eq_of_lt hi, Nat.mod_eq_of_lt hj] at this
    exact this
  · rintro rfl; rfl

section Label
variable {a : BitVec 32} (ha : a.toNat < 64)
include ha

theorem label_not_neg : ¬ IntOp.cmpi .slt a 0#32 = 1#1 := by
  rw [Predicate.slt_iff_toNat (by omega) (by decide)]
  exact Nat.not_lt_zero _

theorem label_ge_zero : IntOp.cmpi .sge a 0#32 = 1#1 :=
  (Predicate.sge_iff_toNat (by omega) (by decide)).2 (Nat.zero_le _)

theorem label_le_63 : IntOp.cmpi .sle a 63#32 = 1#1 :=
  (Predicate.sle_iff_toNat (by omega) (by decide)).2 (by show a.toNat ≤ 63; omega)

theorem label_clamp : min a.toInt.toNat 63 = a.toNat := by
  rw [Predicate.toInt_eq_toNat_of_lt (by omega), Int.toNat_natCast]
  omega

end Label

theorem foldl_andi_one {ι : Type} (f : ι → BitVec 1) (hf : ∀ n, f n = 1#1) :
    ∀ l : List ι, l.foldl (fun r n => IntOp.andi r (f n)) 1#1 = 1#1
  | [] => rfl
  | n :: l => by
    rw [List.foldl_cons, hf n]
    exact foldl_andi_one f hf l

theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x hx _

local notation "dAlong" => gather_S8192x64_S8192x1x1_S8192x1_n_1_0_0_1_2_11
local notation "dRows" => gather_S64x8192_S8192x1_S8192x8192_1_0_n_n_0_1_18192

theorem along_axis0 (idx : IVec S8192x1x1 32) (i : Fin 8192) :
    (GatherDims.operandIdx dAlong (ix2 i 0) idx ⟨0, by decide⟩).val = i.val := by
  have hb : (0 : Fin 2) ∈ (dAlong).operandBatchingDims := by decide
  have hk : (0 : Fin 2) ∉ (dAlong).sKept := by decide
  show GatherDims.start dAlong (ix2 i 0) idx 0 + GatherDims.batchCoord dAlong (ix2 i 0) 0 + GatherDims.offCoord dAlong (ix2 i 0) 0 = i.val
  rw [GatherDims.start_batching _ _ _ _ hb, GatherDims.offCoord_eq_zero _ _ _ hk, Nat.zero_add, Nat.add_zero]
  unfold GatherDims.batchCoord
  rw [dif_pos hb]
  rfl

theorem along_axis1 (idx : IVec S8192x1x1 32) (i : Fin 8192) :
    (GatherDims.operandIdx dAlong (ix2 i 0) idx ⟨1, by decide⟩).val = min (idx (ix3 i 0 0)).toInt.toNat 63 := by
  have hb : (1 : Fin 2) ∉ (dAlong).operandBatchingDims := by decide
  have hk : (1 : Fin 2) ∉ (dAlong).sKept := by decide
  have hm : (1 : Fin 2) ∈ (dAlong).startIndexMap := by decide
  show GatherDims.start dAlong (ix2 i 0) idx 1 + GatherDims.batchCoord dAlong (ix2 i 0) 1 + GatherDims.offCoord dAlong (ix2 i 0) 1 = _
  rw [GatherDims.batchCoord_eq_zero _ _ _ hb, GatherDims.offCoord_eq_zero _ _ _ hk, Nat.add_zero]
  unfold GatherDims.start
  rw [dif_pos hm]
  show min (idx _).toInt.toNat (64 - 1) = _
  congr 3
  congr 1
  funext b
  match b with
  | ⟨0, _⟩ => rfl
  | ⟨1, _⟩ => rfl
  | ⟨2, _⟩ => rfl

theorem take_along_apply {α : Type} (x : S8192x64.Idx → α) (idx : IVec S8192x1x1 32) (i : Fin 8192) :
    Host.gather dAlong x idx (ix2 i 0)
      = x (ix2 i ⟨min (idx (ix3 i 0 0)).toInt.toNat 63, by omega⟩) := by
  unfold Host.gather
  congr 1
  funext a
  match a with
  | ⟨0, _⟩ => exact Fin.ext (along_axis0 idx i)
  | ⟨1, _⟩ => exact Fin.ext (along_axis1 idx i)

theorem rows_axis1 (idx : IVec S8192x1 32) (i k : Fin 8192) :
    (GatherDims.operandIdx dRows (ix2 i k) idx ⟨1, by decide⟩).val = k.val := by
  have hb : (1 : Fin 2) ∉ (dRows).operandBatchingDims := by decide
  have hk : (1 : Fin 2) ∈ (dRows).sKept := by decide
  have hm : (1 : Fin 2) ∉ (dRows).startIndexMap := by decide
  show GatherDims.start dRows (ix2 i k) idx 1 + GatherDims.batchCoord dRows (ix2 i k) 1 + GatherDims.offCoord dRows (ix2 i k) 1 = k.val
  rw [GatherDims.batchCoord_eq_zero _ _ _ hb, Nat.add_zero]
  unfold GatherDims.start
  rw [dif_neg hm, Nat.zero_add]
  unfold GatherDims.offCoord
  rw [dif_pos hk]
  rfl

theorem rows_axis0 (idx : IVec S8192x1 32) (i k : Fin 8192) :
    (GatherDims.operandIdx dRows (ix2 i k) idx ⟨0, by decide⟩).val = min (idx (ix2 i 0)).toInt.toNat 63 := by
  have hb : (0 : Fin 2) ∉ (dRows).operandBatchingDims := by decide
  have hk : (0 : Fin 2) ∉ (dRows).sKept := by decide
  have hm : (0 : Fin 2) ∈ (dRows).startIndexMap := by decide
  show GatherDims.start dRows (ix2 i k) idx 0 + GatherDims.batchCoord dRows (ix2 i k) 0 + GatherDims.offCoord dRows (ix2 i k) 0 = _
  rw [GatherDims.batchCoord_eq_zero _ _ _ hb, GatherDims.offCoord_eq_zero _ _ _ hk, Nat.add_zero]
  unfold GatherDims.start
  rw [dif_pos hm]
  show min (idx _).toInt.toNat (64 - 1) = _
  congr 3
  congr 1
  funext b
  match b with
  | ⟨0, _⟩ => rfl
  | ⟨1, _⟩ => rfl

theorem take_rows_apply {α : Type} (x : S64x8192.Idx → α) (idx : IVec S8192x1 32) (i k : Fin 8192) :
    Host.gather dRows x idx (ix2 i k)
      = x (ix2 ⟨min (idx (ix2 i 0)).toInt.toNat 63, by omega⟩ k) := by
  unfold Host.gather
  congr 1
  funext a
  match a with
  | ⟨0, _⟩ => exact Fin.ext (rows_axis0 idx i k)
  | ⟨1, _⟩ => exact Fin.ext (rows_axis1 idx i k)

end Cert.ReferenceIdeal.Hand
-- ==== Proof.KI.RefProto.lean ====
import proofs.«400594_j19061064860124_1_alg».proof.Proof.KI.RefStages
import proofs.«400594_j19061064860124_1_alg».proof.Proof.KI.RefLib
import Idealize.ShloMosaic.Lib.ValueIdxRank1
import Idealize.ShloMosaic.PureOps.Ideal.Laws

noncomputable section

namespace Cert.ReferenceIdeal.Hand

open Cert.ReferenceIdeal Cert.ReferenceIdeal.Gen Cert.ReferenceIdeal.ReadP Idealize.ShloMosaic Idealize.ShloMosaic.StableHlo
open Idealize.ShloMosaic.ValueIdx Cert.Arr
open scoped BigOperators

theorem onehot_elem (a b : BitVec 32) :
    FloatOps.uitofp (F := Ideal) .f32 (IntOp.cmpi .eq a b) = if a = b then (1 : EReal) else 0 := by
  show (((IntOp.cmpi .eq a b).toNat : ℝ) : EReal) = _
  by_cases h : a = b
  · rw [Predicate.cmpi_eq_iff.2 h, if_pos h]
    simp
  · rw [eq_zero_of_ne_one (fun hc => h (Predicate.cmpi_eq_iff.1 hc)), if_neg h]
    simp

theorem label_col {a : BitVec 32} (ha : a.toNat < 64) (h1 : min a.toInt.toNat 63 < 64) (h2 : a.toNat % 64 < 64) :
    (⟨min a.toInt.toNat 63, h1⟩ : Fin 64) = ⟨a.toNat % 64, h2⟩ :=
  Fin.ext (by show min a.toInt.toNat 63 = a.toNat % 64; rw [label_clamp ha, Nat.mod_eq_of_lt ha])

theorem label_col' {a b : BitVec 32} (hab : a = b) (hb : b.toNat < 64) (h1 : min a.toInt.toNat 63 < 64) (h2 : b.toNat % 64 < 64) :
    (⟨min a.toInt.toNat 63, h1⟩ : Fin 64) = ⟨b.toNat % 64, h2⟩ := by
  subst hab
  exact label_col hb _ _

variable (x0 : (⟨S8192x1024, .f32⟩ : BufTy).Contents (Elt Ideal)) (x1 : (⟨S256x1024, .f32⟩ : BufTy).Contents (Elt Ideal))
  (x2 : (⟨S256, .f32⟩ : BufTy).Contents (Elt Ideal)) (x3 : (⟨S64x256, .f32⟩ : BufTy).Contents (Elt Ideal))
  (x4 : (⟨S8192, .i32⟩ : BufTy).Contents (Elt Ideal))
variable (hlab : ∀ i, (clab x4 i).toNat < 64)

section Index
include hlab

theorem take_idx4 (w : S8192x1.Idx) : val_main_call5_v4 (F := Ideal) x4 w = clab x4 (w 0) := by
  rw [val_main_call5_v4_apply, val_main_call5_v1_apply, val_main_v46_apply, val_main_call5_v0_apply, val_main_call5_c_apply]
  have hx : x4 (idx_main_v46 w) = clab x4 (w 0) := leaf1 _ _
  rw [hx]
  exact if_neg (label_not_neg (hlab (w 0)))

theorem take_idx5 (u : S8192x1x1.Idx) : val_main_call5_v5 (F := Ideal) x4 u = clab x4 (u 0) := by
  rw [val_main_call5_v5_apply, take_idx4 x4 hlab]
  refine congrArg (clab x4) (Fin.ext ?_)
  have h1 : (u 1).val < 1 := (u 1).isLt
  have h2 : (u 2).val < 1 := (u 2).isLt
  show (((u 0).val * 1 + (u 1).val) * 1 + (u 2).val) / 1 = (u 0).val
  omega

theorem take_inrange (w : S8192x1.Idx) : val_main_call5_v12 (F := Ideal) x4 w = 1#1 := by
  unfold val_main_call5_v12
  refine reduce_andi_one _ _ _ _ rfl (fun u => ?_) w
  rw [val_main_call5_v11_apply, andi_eq_one_iff]
  constructor
  · rw [val_main_call5_v7_apply, take_idx5 x4 hlab, val_main_call5_v6_apply, val_main_call5_c_2_apply]
    exact label_ge_zero (hlab (u 0))
  · rw [val_main_call5_v10_apply, take_idx5 x4 hlab, val_main_call5_v9_apply, val_main_call5_v8_apply, val_main_call5_c_1_apply]
    exact label_le_63 (hlab (u 0))

theorem rows_idx (w : S8192x1.Idx) : val_main_v61 (F := Ideal) x4 w = clab x4 (w 0) := by
  rw [val_main_v61_apply, val_main_v60_apply, val_main_v57_apply, val_main_v56_apply, val_main_c_9_apply]
  have hx : x4 (idx_main_v61 w) = clab x4 (w 0) := leaf1 _ _
  rw [hx]
  exact if_neg (label_not_neg (hlab (w 0)))

end Index

include hlab

theorem pos_eq (i : S8192.Idx) :
    val_main_v48 (F := Ideal) x0 x1 x2 x3 x4 i = Spec.posR (cen x0 x1 x2) (cln x3) (clab x4) (i 0) := by
  obtain ⟨a, ha⟩ : ∃ a : Fin 8192, i = ix1 a := ⟨i 0, eq_ix1 i⟩
  subst ha
  rw [val_main_v48_apply, val_main_v47_apply, take_inrange x4 hlab, select_one]
  have hi : idx_main_v48 (ix1 a) = ix2 (n0 := 8192) (n1 := 1) a 0 := by
    funext d
    match d with
    | ⟨0, _⟩ => exact Fin.ext (Nat.div_one _)
    | ⟨1, _⟩ => rfl
  rw [hi]
  unfold val_main_call5_v13
  rw [take_along_apply, C_eq]
  exact congrArg (Spec.C (cen x0 x1 x2) (cln x3) a) (label_col' (take_idx5 x4 hlab _) (hlab a) _ _)

theorem neg1_eq (i : S8192.Idx) :
    val_main_v54 (F := Ideal) x0 x1 x2 x3 x4 i = Spec.neg1R (cen x0 x1 x2) (cln x3) (clab x4) (i 0) := by
  rw [val_main_v54_apply]
  have h0 : val_main_cst_8 (F := Ideal) (Shape.Idx.first h_S_) = 0 := Ideal.ofBits_zero_f32
  rw [h0, zero_add]
  unfold Spec.neg1R
  refine Finset.sum_congr rfl fun k _ => ?_
  rw [val_main_v53_apply, val_main_v50_apply, val_main_v52_apply, val_main_v51_apply, val_main_cst_7_apply,
    val_main_v49_apply, val_main_call6_v4_apply, val_main_call6_v2_apply, val_main_call6_v0_apply,
    val_main_call6_v3_apply, val_main_call6_v1_apply, C_eq]
  have hx : x4 (idx_main_call6_v0 (idx_main_call6_v2 (idx_main_v54 i k))) = clab x4 (i 0) := leaf1 _ _
  rw [hx, onehot_elem]
  rfl

theorem neg2_eq (i : S8192.Idx) :
    val_main_v65 (F := Ideal) x0 x1 x2 x3 x4 i = Spec.neg2R (cen x0 x1 x2) (cln x3) (clab x4) (i 0) := by
  obtain ⟨a, ha⟩ : ∃ a : Fin 8192, i = ix1 a := ⟨i 0, eq_ix1 i⟩
  subst ha
  rw [val_main_v65_apply]
  have h0 : val_main_cst_12 (F := Ideal) (Shape.Idx.first h_S_) = 0 := Ideal.ofBits_zero_f32
  rw [h0, zero_add]
  unfold Spec.neg2R
  refine Finset.sum_congr rfl fun k _ => ?_
  rw [val_main_v64_apply, val_main_v63_apply, val_main_call7_v1_apply, val_main_call7_v0_apply, val_main_cst_11_apply,
    select_of_iff ((not_eq_one_iff _).trans (not_congr (same_iff x4 _)))]
  have hi : idx_main_v65 (ix1 a) k = ix2 (n0 := 8192) (n1 := 8192) a k := by
    funext d
    match d with
    | ⟨0, _⟩ => rfl
    | ⟨1, _⟩ => rfl
  rw [hi]
  by_cases h : clab x4 a = clab x4 k
  · rw [if_neg (not_not.2 h), if_pos h]
    exact Ideal.ofBits_zero_f32
  · rw [if_pos h, if_neg h]
    unfold val_main_v62
    rw [take_rows_apply, val_main_v55_apply, val_main_v50_apply, C_eq]
    exact congrArg (fun l => Ideal.exp (Spec.C (cen x0 x1 x2) (cln x3) k l)) (label_col' (rows_idx x4 hlab _) (hlab a) _ _)

theorem p1_eq (i : S8192.Idx) :
    val_main_v70 (F := Ideal) x0 x1 x2 x3 x4 i = Spec.p1R (cen x0 x1 x2) (cln x3) (clab x4) (i 0) := by
  rw [val_main_v70_apply, val_main_v67_apply, val_main_v69_apply, val_main_v68_apply, val_main_v66_apply,
    pos_eq x0 x1 x2 x3 x4 hlab, neg1_eq x0 x1 x2 x3 x4 hlab]
  rfl

theorem p2_eq (i : S8192.Idx) :
    val_main_v76 (F := Ideal) x0 x1 x2 x3 x4 i = Spec.p2R (cen x0 x1 x2) (cln x3) (clab x4) (i 0) := by
  rw [val_main_v76_apply, val_main_v73_apply, val_main_v75_apply, val_main_v74_apply, val_main_v66_apply,
    pos_eq x0 x1 x2 x3 x4 hlab, neg2_eq x0 x1 x2 x3 x4 hlab]
  rfl

theorem mean1_eq (i : S_.Idx) :
    val_main_v72 (F := Ideal) x0 x1 x2 x3 x4 i
      = Ideal.div (∑ a : Fin 8192, Spec.p1R (cen x0 x1 x2) (cln x3) (clab x4) a) Spec.c8192 := by
  rw [val_main_v72_apply, val_main_v71_apply, val_main_cst_14_apply]
  have h0 : val_main_cst_13 (F := Ideal) (Shape.Idx.first h_S_) = 0 := Ideal.ofBits_zero_f32
  rw [h0, zero_add, ← Equiv.sum_comp (idxEquiv1 (n := 8192)).symm]
  simp only [p1_eq x0 x1 x2 x3 x4 hlab]
  rfl

theorem mean2_eq (i : S_.Idx) :
    val_main_v78 (F := Ideal) x0 x1 x2 x3 x4 i
      = Ideal.div (∑ a : Fin 8192, Spec.p2R (cen x0 x1 x2) (cln x3) (clab x4) a) Spec.c8192 := by
  rw [val_main_v78_apply, val_main_v77_apply, val_main_cst_16_apply]
  have h0 : val_main_cst_15 (F := Ideal) (Shape.Idx.first h_S_) = 0 := Ideal.ofBits_zero_f32
  rw [h0, zero_add, ← Equiv.sum_comp (idxEquiv1 (n := 8192)).symm]
  simp only [p2_eq x0 x1 x2 x3 x4 hlab]
  rfl

end Cert.ReferenceIdeal.Hand

end
-- ==== Proof.KI.Ref.lean ====
import proofs.«400594_j19061064860124_1_alg».proof.Defs
import proofs.«400594_j19061064860124_1_alg».proof.Proof.Gen.ReferenceIdeal
import proofs.«400594_j19061064860124_1_alg».proof.Proof.Gen.Pre_finite_inputs
import proofs.«400594_j19061064860124_1_alg».proof.Proof.KI.RefRun
import proofs.«400594_j19061064860124_1_alg».proof.Proof.KI.RefRead
import proofs.«400594_j19061064860124_1_alg».proof.Proof.KI.Spec
import proofs.«400594_j19061064860124_1_alg».proof.Proof.KI.Arr
import proofs.«400594_j19061064860124_1_alg».proof.Proof.KI.RefStages
import proofs.«400594_j19061064860124_1_alg».proof.Proof.KI.RefInter
import proofs.«400594_j19061064860124_1_alg».proof.Proof.KI.RefProto

noncomputable section

namespace Cert.ReferenceIdeal.Hand

open Cert.ReferenceIdeal Cert.ReferenceIdeal.Gen Cert.ReferenceIdeal.ReadP Idealize.ShloMosaic Idealize.ShloMosaic.TcCoe
  Idealize.SL.Sem Idealize.ShloMosaic.StableHlo
open Idealize.ShloMosaic.ValueIdx Cert.Arr
open scoped BigOperators

theorem res_eq (x0 : (⟨S8192x1024, .f32⟩ : BufTy).Contents (Elt Ideal)) (x1 : (⟨S256x1024, .f32⟩ : BufTy).Contents (Elt Ideal))
    (x2 : (⟨S256, .f32⟩ : BufTy).Contents (Elt Ideal)) (x3 : (⟨S64x256, .f32⟩ : BufTy).Contents (Elt Ideal))
    (x4 : (⟨S8192, .i32⟩ : BufTy).Contents (Elt Ideal)) (hlab : ∀ i, (clab x4 i).toNat < 64) (i : S_.Idx) :
    val_main_v82 (F := Ideal) x0 x1 x2 x3 x4 i = Spec.resR (cen x0 x1 x2) (cln x3) (clab x4) := by
  rw [val_main_v82_apply, val_main_v79_apply, val_main_v81_apply, val_main_v80_apply, val_main_cst_17_apply,
    val_main_cst_18_apply, inter_eq_of x0 x1 x2 x4 (cen x0 x1 x2) (clab x4) (S_eq x0 x1 x2) (same_iff x4) i,
    mean1_eq x0 x1 x2 x3 x4 hlab i, mean2_eq x0 x1 x2 x3 x4 hlab i]
  rfl

variable (m : (ℓ : Loc nD τ sig) → Buf (Elt Ideal) ℓ) (c : Dev nD)

abbrev aX : Fin 8192 → Fin 1024 → EReal := arr2 (m ((c.tc : Thread nD τ).loc main_arg0) : FVec Ideal S8192x1024 .f32)
abbrev aW : Fin 256 → Fin 1024 → EReal := arr2 (m ((c.tc : Thread nD τ).loc main_arg1) : FVec Ideal S256x1024 .f32)
abbrev ab : Fin 256 → EReal := arr1 (m ((c.tc : Thread nD τ).loc main_arg2) : FVec Ideal S256 .f32)
abbrev aLe : Fin 64 → Fin 256 → EReal := arr2 (m ((c.tc : Thread nD τ).loc main_arg3) : FVec Ideal S64x256 .f32)
abbrev alab : Fin 8192 → BitVec 32 := arr1 (m ((c.tc : Thread nD τ).loc main_arg4) : IVec S8192 32)

theorem ref_value (hlab : ∀ i, (alab m c i).toNat < 64) :
    (Cert.ReferenceIdeal.ValueP.res_main_v82 m c : S_.Idx → EReal) ValueIdx.ix0
      = Cert.Spec.resR (Cert.Spec.en (aX m c) (aW m c) (ab m c)) (Cert.Spec.ln (aLe m c)) (alab m c) := by
  rw [val_main_v82_eq]
  exact res_eq _ _ _ _ _ hlab ix0

theorem frame_ref : Cert.frame_ReferenceIdeal := fun m ρ _ =>
  (θ_run Cert.ReferenceIdeal.defs _ _).mono (fun _ h c => (h c).2) (Cert.ReferenceIdeal.ValueP.run (F := Ideal) m ρ)

end Cert.ReferenceIdeal.Hand

end
-- ==== Proof.KI.MathBase.lean ====
import proofs.«400594_j19061064860124_1_alg».proof.Proof.KI.Spec
import Idealize.ShloMosaic.PureOps.Ideal.Laws
import Mathlib.Data.EReal.Operations
import Mathlib.Logic.Equiv.Fin.Basic
import Mathlib.Analysis.SpecialFunctions.Log.Basic

noncomputable section

namespace Cert.Spec

open Idealize.ShloMosaic
open scoped BigOperators

theorem one_eq : one = 1 := by
  simp [one, Ideal.ofBits, Ideal.ieee, -EReal.coe_mul]; norm_num

theorem c8192_eq : c8192 = ((8192 : ℝ) : EReal) := by
  simp [c8192, Ideal.ofBits, Ideal.ieee, -EReal.coe_mul]; norm_num

theorem eps_real : ∃ r : ℝ, 0 < r ∧ eps = (r : EReal) := by
  refine ⟨(11258999 : ℝ) * (2 : ℝ) ^ (-50 : ℤ), by positivity, ?_⟩
  simp [eps, Ideal.ofBits, Ideal.ieee, -EReal.coe_mul]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem tile_sum {M : Type} [AddCommMonoid M] (f : Fin 8192 → M) :
    ∑ t : Fin 8, ∑ r : Fin 1024, f (gi t r) = ∑ j : Fin 8192, f j := by
  rw [← Fintype.sum_prod_type' (fun t r => f (gi t r))]
  refine Fintype.sum_equiv (finProdFinEquiv : Fin 8 × Fin 1024 ≃ Fin (8 * 1024)) _ _ ?_
  rintro ⟨t, r⟩
  refine congrArg f (Fin.ext ?_)
  simp [gi, finProdFinEquiv]
  ring

def lidx (lab : Fin 8192 → BitVec 32) (i : Fin 8192) : Fin 64 := ⟨(lab i).toNat % 64, Nat.mod_lt _ (by decide)⟩

theorem ofNat_lidx (lab : Fin 8192 → BitVec 32) (hlab : ∀ i, (lab i).toNat < 64) (i : Fin 8192) :
    BitVec.ofNat 32 (lidx lab i).val = lab i := by
  apply BitVec.eq_of_toNat_eq
  have := hlab i
  simp [lidx, BitVec.toNat_ofNat]
  omega

theorem lab_eq_iff (lab : Fin 8192 → BitVec 32) (hlab : ∀ i, (lab i).toNat < 64) (i : Fin 8192) (l : Fin 64) :
    lab i = BitVec.ofNat 32 l.val ↔ l = lidx lab i := by
  constructor
  · intro h
    apply Fin.ext
    have hl := l.isLt
    simp [lidx, h, BitVec.toNat_ofNat]
    omega
  · rintro rfl
    exact (ofNat_lidx lab hlab i).symm

theorem exp_real (r : ℝ) : Ideal.exp (r : EReal) = (Real.exp r : EReal) := rfl

theorem exp_zero : Ideal.exp 0 = 1 := by
  rw [← EReal.coe_zero, exp_real, Real.exp_zero, EReal.coe_one]

theorem div_real (x : ℝ) {y : ℝ} (h : y ≠ 0) : Ideal.div (x : EReal) (y : EReal) = ((x / y : ℝ) : EReal) := by
  rw [Ideal.div_coe h, ← EReal.coe_mul, mul_one_div]

theorem sqrt_real {r : ℝ} (h : 0 ≤ r) : Ideal.sqrt (r : EReal) = (Real.sqrt r : EReal) := by
  rw [Ideal.sqrt_coe, if_neg (not_lt.mpr h)]

end Cert.Spec

end
-- ==== Proof.KI.MathRow.lean ====
import proofs.«400594_j19061064860124_1_alg».proof.Proof.KI.MathBase

noncomputable section

namespace Cert.Spec

open Idealize.ShloMosaic
open scoped BigOperators

variable (en : Fin 8192 → Fin 256 → EReal) (lab : Fin 8192 → BitVec 32)

theorem Nk_eq_Nr (i : Fin 8192) : Nk en lab i = Nr en lab i :=
  tile_sum (fun j => if lab i = lab j then 0 else Ideal.exp (S en i j))

theorem Pk_eq (i : Fin 8192) :
    Pk en lab i = ∑ j : Fin 8192, if lab i = lab j ∧ i ≠ j
      then (0 - S en i j) + Ideal.log (Nk en lab i + Ideal.exp (S en i j)) else 0 :=
  tile_sum (fun j => if lab i = lab j ∧ i ≠ j
      then (0 - S en i j) + Ideal.log (Nk en lab i + Ideal.exp (S en i j)) else 0)

theorem sum_ite_const {ι : Type} [Fintype ι] (p : ι → Prop) [DecidablePred p] (L : EReal) :
    ∑ j : ι, (if p j then L else 0) = ((Finset.univ.filter p).card : EReal) * L := by
  rw [Finset.sum_ite, Finset.sum_const, Finset.sum_const_zero, add_zero, EReal.nsmul_eq_mul]

theorem countK_lidx (hlab : ∀ i, (lab i).toNat < 64) (i : Fin 8192) :
    countK lab (lidx lab i) = ((Finset.univ.filter (fun j => lab i = lab j)).card : EReal) := by
  unfold countK hot
  rw [ofNat_lidx lab hlab i]
  have := sum_ite_const (fun j => lab i = lab j) 1
  rw [mul_one] at this
  rw [← this]
  exact Finset.sum_congr rfl fun j _ => by simp only [eq_comm]

theorem cnegK_eq (hlab : ∀ i, (lab i).toNat < 64) (i : Fin 8192) :
    cnegK lab i = ((Finset.univ.filter (fun j => ¬ lab i = lab j)).card : EReal) := by
  have hc : cnegK lab i = c8192 - countK lab (lidx lab i) := rfl
  rw [hc, countK_lidx lab hlab i, c8192_eq]
  have hsum := Finset.card_filter_add_card_filter_not (s := (Finset.univ : Finset (Fin 8192))) (fun j => lab i = lab j)
  rw [Finset.card_univ, Fintype.card_fin] at hsum
  rw [← EReal.coe_coe_eq_natCast, ← EReal.coe_coe_eq_natCast, ← EReal.coe_sub]
  congr 1
  have : ((Finset.univ.filter (fun j => lab i = lab j)).card : ℝ) + ((Finset.univ.filter (fun j => ¬ lab i = lab j)).card : ℝ) = 8192 := by
    exact_mod_cast hsum
  linarith

theorem rowK_eq (hlab : ∀ i, (lab i).toNat < 64) (i : Fin 8192) :
    rowK en lab i = ∑ j : Fin 8192, if i ≠ j
      then (-(Pm en lab i j)) + Ideal.log (Nr en lab i + Ideal.exp (Pm en lab i j)) else 0 := by
  rw [rowK, Pk_eq, Nk_eq_Nr, cnegK_eq lab hlab i, one_eq,
    ← sum_ite_const (fun j => ¬ lab i = lab j) (Ideal.log (Nr en lab i + 1)), ← Finset.sum_add_distrib]
  refine Finset.sum_congr rfl fun j _ => ?_
  unfold Pm
  by_cases h1 : lab i = lab j
  · by_cases h2 : i = j
    · simp [h1, h2]
    · simp [h1, h2, zero_sub]
  · have h2 : i ≠ j := fun h => h1 (h ▸ rfl)
    simp [h1, h2, exp_zero]

end Cert.Spec

end
-- ==== Proof.KI.MathFin.lean ====
import proofs.«400594_j19061064860124_1_alg».proof.Proof.KI.MathBase

noncomputable section

namespace Cert.Spec

open Idealize.ShloMosaic
open scoped BigOperators

theorem clamp_norm_real {n : ℕ} (v : Fin n → ℝ) :
    ∃ r : ℝ, 0 < r ∧ max (Ideal.sqrt (∑ e : Fin n, (v e : EReal) * (v e : EReal))) eps = (r : EReal) := by
  obtain ⟨ε, hε, heps⟩ := eps_real
  refine ⟨max (Real.sqrt (∑ e : Fin n, v e * v e)) ε, lt_max_of_lt_right hε, ?_⟩
  have hs : (∑ e : Fin n, (v e : EReal) * (v e : EReal)) = ((∑ e : Fin n, v e * v e : ℝ) : EReal) := by
    rw [coe_sum]
    exact Finset.sum_congr rfl fun e _ => (EReal.coe_mul _ _).symm
  rw [hs, sqrt_real (Finset.sum_nonneg fun e _ => mul_self_nonneg _), heps]
  exact (EReal.coe_strictMono.monotone.map_max).symm

theorem en_real (X : Fin 8192 → Fin 1024 → EReal) (W : Fin 256 → Fin 1024 → EReal) (b : Fin 256 → EReal)
    (hX : ∀ i k, ∃ r : ℝ, X i k = r) (hW : ∀ e k, ∃ r : ℝ, W e k = r) (hb : ∀ e, ∃ r : ℝ, b e = r) :
    ∃ en' : Fin 8192 → Fin 256 → ℝ, en X W b = fun i e => ((en' i e : ℝ) : EReal) := by
  choose X' hX' using hX
  choose W' hW' using hW
  choose b' hb' using hb
  have hemb : ∀ i e, emb X W b i e = ((∑ k : Fin 1024, X' i k * W' e k + b' e : ℝ) : EReal) := by
    intro i e
    unfold emb
    rw [EReal.coe_add, coe_sum, hb']
    congr 1
    exact Finset.sum_congr rfl fun k _ => by rw [hX', hW', EReal.coe_mul]
  have hnrm : ∀ i, ∃ r : ℝ, 0 < r ∧ nrm X W b i = (r : EReal) := by
    intro i
    unfold nrm
    simp only [hemb]
    exact clamp_norm_real (fun e => ∑ k : Fin 1024, X' i k * W' e k + b' e)
  choose n hnpos hn using hnrm
  refine ⟨fun i e => (∑ k : Fin 1024, X' i k * W' e k + b' e) / n i, ?_⟩
  funext i e
  unfold en
  rw [hemb, hn, div_real _ (hnpos i).ne']

theorem ln_real (Le : Fin 64 → Fin 256 → EReal) (hLe : ∀ l e, ∃ r : ℝ, Le l e = r) :
    ∃ ln' : Fin 64 → Fin 256 → ℝ, ln Le = fun l e => ((ln' l e : ℝ) : EReal) := by
  choose Le' hLe' using hLe
  have hnrm : ∀ l, ∃ r : ℝ, 0 < r ∧ lnrm Le l = (r : EReal) := by
    intro l
    unfold lnrm
    simp only [hLe']
    exact clamp_norm_real (fun e => Le' l e)
  choose n hnpos hn using hnrm
  refine ⟨fun l e => Le' l e / n l, ?_⟩
  funext l e
  unfold ln
  rw [hLe', hn, div_real _ (hnpos l).ne']

end Cert.Spec

end
-- ==== Proof.KI.MathProto.lean ====
import proofs.«400594_j19061064860124_1_alg».proof.Proof.KI.MathBase

noncomputable section

namespace Cert.Spec

open Idealize.ShloMosaic
open scoped BigOperators

abbrev toE {α β : Type} (f : α → β → ℝ) : α → β → EReal := fun a b => ((f a b : ℝ) : EReal)

section General
variable (en : Fin 8192 → Fin 256 → EReal) (ln : Fin 64 → Fin 256 → EReal) (lab : Fin 8192 → BitVec 32)

theorem posK_eq (hlab : ∀ i, (lab i).toNat < 64) (i : Fin 8192) : posK en ln lab i = C en ln i (lidx lab i) := by
  unfold posK hot
  simp only [lab_eq_iff lab hlab i]
  simp [mul_ite, Finset.sum_ite_eq']

theorem posR_eq (i : Fin 8192) : posR en ln lab i = C en ln i (lidx lab i) := rfl

theorem colsumK_eq (l : Fin 64) : colsumK en ln l = ∑ j : Fin 8192, Ideal.exp (C en ln j l) :=
  tile_sum (fun j => Ideal.exp (C en ln j l))

theorem possumK_eq (l : Fin 64) :
    possumK en ln lab l = ∑ j : Fin 8192, hot lab j l * Ideal.exp (posK en ln lab j) :=
  tile_sum (fun j => hot lab j l * Ideal.exp (posK en ln lab j))

theorem hot_sum_pick (hlab : ∀ i, (lab i).toNat < 64) (i : Fin 8192) (g : Fin 64 → EReal) :
    ∑ l : Fin 64, hot lab i l * g l = g (lidx lab i) := by
  unfold hot
  simp only [lab_eq_iff lab hlab i]
  simp [ite_mul, Finset.sum_ite_eq']

end General

section Real
variable (en' : Fin 8192 → Fin 256 → ℝ) (ln' : Fin 64 → Fin 256 → ℝ) (lab : Fin 8192 → BitVec 32)

def Cr (i : Fin 8192) (l : Fin 64) : ℝ := ∑ e : Fin 256, en' i e * ln' l e

theorem C_real (i : Fin 8192) (l : Fin 64) : C (toE en') (toE ln') i l = ((Cr en' ln' i l : ℝ) : EReal) := by
  unfold C Cr toE
  rw [coe_sum]
  exact Finset.sum_congr rfl fun e _ => (EReal.coe_mul _ _).symm

theorem p1K_eq_p1R (hlab : ∀ i, (lab i).toNat < 64) (i : Fin 8192) :
    p1K (toE en') (toE ln') lab i = p1R (toE en') (toE ln') lab i := by
  unfold p1K p1R neg1R
  rw [posK_eq _ _ lab hlab i, posR_eq, zero_sub]
  simp only [C_real, exp_real]
  have hh : ∀ l : Fin 64, one - hot lab i l = (((if l = lidx lab i then 0 else 1 : ℝ)) : EReal) := by
    intro l
    unfold hot
    rw [one_eq]
    simp only [lab_eq_iff lab hlab i]
    split_ifs
    · rw [← EReal.coe_one, ← EReal.coe_sub, sub_self]
    · rw [← EReal.coe_zero, ← EReal.coe_one, ← EReal.coe_sub, sub_zero]
  have harg : (∑ l : Fin 64, ((Real.exp (Cr en' ln' i l) : ℝ) : EReal)) - ((Real.exp (Cr en' ln' i (lidx lab i)) : ℝ) : EReal)
        + ((Real.exp (Cr en' ln' i (lidx lab i)) : ℝ) : EReal)
      = (∑ l : Fin 64, ((Real.exp (Cr en' ln' i l) : ℝ) : EReal) * (one - hot lab i l))
        + ((Real.exp (Cr en' ln' i (lidx lab i)) : ℝ) : EReal) := by
    simp only [hh, ← EReal.coe_mul, ← coe_sum, ← EReal.coe_sub, ← EReal.coe_add]
    congr 1
    have hterm : ∀ l : Fin 64, Real.exp (Cr en' ln' i l) * (if l = lidx lab i then (0 : ℝ) else 1)
        = Real.exp (Cr en' ln' i l) - (if l = lidx lab i then Real.exp (Cr en' ln' i l) else 0) := by
      intro l; split_ifs <;> simp
    simp only [hterm, Finset.sum_sub_distrib, Finset.sum_ite_eq', Finset.mem_univ, if_true]
  rw [harg]

theorem p2K_eq_p2R (hlab : ∀ i, (lab i).toNat < 64) (i : Fin 8192) :
    p2K (toE en') (toE ln') lab i = p2R (toE en') (toE ln') lab i := by
  unfold p2K p2R neg2R
  rw [posK_eq _ _ lab hlab i, posR_eq, zero_sub,
    hot_sum_pick lab hlab i (fun l => colsumK (toE en') (toE ln') l - possumK (toE en') (toE ln') lab l)]
  have hp : ∀ j : Fin 8192, hot lab j (lidx lab i) * Ideal.exp (posK (toE en') (toE ln') lab j)
      = (((if lab i = lab j then Real.exp (Cr en' ln' j (lidx lab i)) else 0 : ℝ)) : EReal) := by
    intro j
    unfold hot
    rw [ofNat_lidx lab hlab i]
    by_cases h : lab j = lab i
    · have hl : lidx lab j = lidx lab i := Fin.ext (by simp only [lidx, h])
      rw [if_pos h, if_pos h.symm, one_mul, posK_eq _ _ lab hlab j, C_real, exp_real, hl]
    · rw [if_neg h, if_neg (Ne.symm h), zero_mul, EReal.coe_zero]
  have hc : ∀ j : Fin 8192, Ideal.exp (C (toE en') (toE ln') j (lidx lab i))
      = ((Real.exp (Cr en' ln' j (lidx lab i)) : ℝ) : EReal) := by
    intro j; rw [C_real, exp_real]
  have hr : ∀ j : Fin 8192, (if lab i = lab j then (0 : EReal) else ((Real.exp (Cr en' ln' j (lidx lab i)) : ℝ) : EReal))
      = (((if lab i = lab j then 0 else Real.exp (Cr en' ln' j (lidx lab i)) : ℝ)) : EReal) := by
    intro j; split_ifs <;> simp
  have hdiff : colsumK (toE en') (toE ln') (lidx lab i) - possumK (toE en') (toE ln') lab (lidx lab i)
      = ∑ j : Fin 8192, if lab i = lab j then 0 else Ideal.exp (C (toE en') (toE ln') j (lidx lab i)) := by
    rw [colsumK_eq, possumK_eq]
    simp only [hp, hc, hr, ← coe_sum, ← EReal.coe_sub]
    congr 1
    rw [← Finset.sum_sub_distrib]
    exact Finset.sum_congr rfl fun j _ => by split_ifs <;> simp
  rw [hdiff]
  rfl

end Real

end Cert.Spec

end
-- ==== Proof.KI.Math.lean ====
import proofs.«400594_j19061064860124_1_alg».proof.Proof.KI.MathRow
import proofs.«400594_j19061064860124_1_alg».proof.Proof.KI.MathFin
import proofs.«400594_j19061064860124_1_alg».proof.Proof.KI.MathProto

noncomputable section

namespace Cert.Spec

open Idealize.ShloMosaic
open scoped BigOperators

theorem resK_eq_resR_real (en' : Fin 8192 → Fin 256 → ℝ) (ln' : Fin 64 → Fin 256 → ℝ) (lab : Fin 8192 → BitVec 32)
    (hlab : ∀ i, (lab i).toNat < 64) :
    resK (toE en') (toE ln') lab = resR (toE en') (toE ln') lab := by
  unfold resK resR interR
  have h1 : (∑ i : Fin 8192, rowK (toE en') lab i)
      = ∑ i : Fin 8192, ∑ j : Fin 8192, if i ≠ j
          then (-(Pm (toE en') lab i j)) + Ideal.log (Nr (toE en') lab i + Ideal.exp (Pm (toE en') lab i j)) else 0 :=
    Finset.sum_congr rfl fun i _ => rowK_eq (toE en') lab hlab i
  have h2 : (∑ i : Fin 8192, p1K (toE en') (toE ln') lab i) = ∑ i : Fin 8192, p1R (toE en') (toE ln') lab i :=
    Finset.sum_congr rfl fun i _ => p1K_eq_p1R en' ln' lab hlab i
  have h3 : (∑ i : Fin 8192, p2K (toE en') (toE ln') lab i) = ∑ i : Fin 8192, p2R (toE en') (toE ln') lab i :=
    Finset.sum_congr rfl fun i _ => p2K_eq_p2R en' ln' lab hlab i
  rw [h1, h2, h3]

theorem resK_eq_resR (X : Fin 8192 → Fin 1024 → EReal) (W : Fin 256 → Fin 1024 → EReal) (b : Fin 256 → EReal)
    (Le : Fin 64 → Fin 256 → EReal) (lab : Fin 8192 → BitVec 32)
    (hX : ∀ i k, ∃ r : ℝ, X i k = r) (hW : ∀ e k, ∃ r : ℝ, W e k = r) (hb : ∀ e, ∃ r : ℝ, b e = r)
    (hLe : ∀ l e, ∃ r : ℝ, Le l e = r) (hlab : ∀ i, (lab i).toNat < 64) :
    resK (en X W b) (ln Le) lab = resR (en X W b) (ln Le) lab := by
  obtain ⟨en', hen⟩ := en_real X W b hX hW hb
  obtain ⟨ln', hln⟩ := ln_real Le hLe
  rw [hen, hln]
  exact resK_eq_resR_real en' ln' lab hlab

end Cert.Spec

end
-- ==== Proof.KI.PreDecode.lean ====
import proofs.«400594_j19061064860124_1_alg».proof.Pre_finite_inputs
import Idealize.ShloMosaic.PureOps.Ideal
import Idealize.ShloMosaic.Lib.ReduceAll
import Idealize.ShloMosaic.Lib.StableHlo.Predicate

noncomputable section

namespace Cert.PreDecode

open Idealize.ShloMosaic Cert.Pre_finite_inputs

theorem ofBits_inf : Ideal.ofBits .f32 0x7F800000#32 = ⊤ := by
  simp [Ideal.ofBits, Ideal.ieee]

theorem elem_real (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

theorem label_range (x : BitVec 32) (h0 : IntOp.cmpi .sge x 0#32 = 1#1) (h1 : IntOp.cmpi .slt x 64#32 = 1#1) :
    x.toNat < 64 := by
  simp only [IntOp.cmpi, StableHlo.Predicate.ofBool_eq_one_iff, BitVec.sle, BitVec.slt, decide_eq_true_eq] at h0 h1
  have hc := BitVec.toInt_eq_toNat_cond x
  have hx := x.isLt
  have z0 : (0#32 : BitVec 32).toInt = 0 := by decide
  have z1 : (64#32 : BitVec 32).toInt = 64 := by decide
  rw [z0] at h0
  rw [z1] at h1
  split_ifs at hc <;> omega

variable [Cert.Pre_finite_inputs.Facts]

instance : Subsingleton S_.Idx := ⟨fun a b => funext fun d => d.elim0⟩

theorem decode (a0 : FVec Ideal S8192x1024 .f32) (a1 : FVec Ideal S256x1024 .f32) (a2 : FVec Ideal S256 .f32)
    (a3 : FVec Ideal S64x256 .f32) (a4 : IVec S8192 32)
    (h : Cert.Pre_finite_inputs.fn (F := Ideal) a0 a1 a2 a3 a4 = (fun _ => 1#1)) :
    (∀ y, ∃ r : ℝ, a0 y = (r : EReal)) ∧ (∀ y, ∃ r : ℝ, a1 y = (r : EReal)) ∧ (∀ y, ∃ r : ℝ, a2 y = (r : EReal))
      ∧ (∀ y, ∃ r : ℝ, a3 y = (r : EReal)) ∧ ∀ y, (a4 y).toNat < 64 := by
  have h0 := congrFun h (fun d => d.elim0)
  dsimp only [fn, fn_part1] at h0
  simp only [andi, IntOp.andi_eq_one] at h0
  obtain ⟨⟨⟨⟨h3, h7⟩, h12⟩, h17⟩, h24⟩ := h0
  refine ⟨fun y => ?_, fun y => ?_, fun y => ?_, fun y => ?_, fun y => ?_⟩
  · exact elem_real (a0 y) (Host.reduce_andi_all _ _ _ _ _ h3 y)
  · exact elem_real (a1 y) (Host.reduce_andi_all _ _ _ _ _ h7 y)
  · exact elem_real (a2 y) (Host.reduce_andi_all _ _ _ _ _ h12 y)
  · exact elem_real (a3 y) (Host.reduce_andi_all _ _ _ _ _ h17 y)
  · have hy := IntOp.andi_eq_one.1 (Host.reduce_andi_all _ _ _ _ _ h24 y)
    exact label_range (a4 y) hy.1 hy.2

end Cert.PreDecode

end
-- ==== Proof.KI.Claims.lean ====
import proofs.«400594_j19061064860124_1_alg».proof.Defs
import proofs.«400594_j19061064860124_1_alg».proof.Proof.Gen.Kernel
import proofs.«400594_j19061064860124_1_alg».proof.Proof.Gen.KernelIdeal
import proofs.«400594_j19061064860124_1_alg».proof.Proof.Gen.ReferenceIdeal
import proofs.«400594_j19061064860124_1_alg».proof.Proof.Gen.Pre_finite_inputs
import proofs.«400594_j19061064860124_1_alg».proof.Proof.KI.Run
import proofs.«400594_j19061064860124_1_alg».proof.Proof.KI.HostRun
import proofs.«400594_j19061064860124_1_alg».proof.Proof.KI.RefRun
import proofs.«400594_j19061064860124_1_alg».proof.Proof.KI.Ref
import proofs.«400594_j19061064860124_1_alg».proof.Proof.KI.Math
import proofs.«400594_j19061064860124_1_alg».proof.Proof.KI.PreDecode
import proofs.«400594_j19061064860124_1_alg».proof.Proof.KI.Spec
import proofs.«400594_j19061064860124_1_alg».proof.Proof.KI.Arr
import Idealize.ShloMosaic.Lib.ValueIdx

noncomputable section

namespace Cert.Proof.Claims

open Idealize.ShloMosaic Idealize.ShloMosaic.TcCoe Idealize.SL.Sem Idealize.ShloMosaic.ValueIdx
open Cert.Arr

section SameText

variable {F : FTy → Type} [FloatOps F]

set_option maxHeartbeats 2000000 in

theorem bodies_eq : Cert.Kernel.defs₀ (F := F) = Cert.KernelIdeal.defs₀ (F := F) := by
  unfold Cert.Kernel.defs₀ Cert.KernelIdeal.defs₀
  congr 1; funext l ts
  match l, ts with
  | 0, (t, s) => rfl
  | 1, (t, s) => rfl
  | 2, (t, s) => rfl
  | 3, (t, s) => rfl
  | ⟨_ + 4, h⟩, _ => exact absurd h (by omega)

set_option maxHeartbeats 2000000 in
theorem defs_eq : Cert.Kernel.defs (F := F) = Cert.KernelIdeal.defs (F := F) :=
  congrArg (Pipeline.defs Cert.KernelIdeal.pcfgs) bodies_eq

end SameText

set_option maxHeartbeats 2000000 in

theorem frame_k : Cert.frame_Kernel := fun m ρ _ => by
  rw [defs_eq]
  exact Cert.KernelIdeal.Hand.frame (F := Bits) m ρ

theorem frame_ki : Cert.frame_KernelIdeal := fun m ρ _ => Cert.KernelIdeal.Hand.frame (F := Ideal) m ρ

theorem frame_ri : Cert.frame_ReferenceIdeal := Cert.ReferenceIdeal.Hand.frame_ref

theorem preserves : Cert.preserves_Kernel_KernelIdeal := trivial

-- The reference's whole-array form and the kernel's tile-by-tile form of the loss denote one extended real.
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.ValueP.res_main_v82 (F := Ideal) m' c : Cert.KernelIdeal.S_.Idx → EReal)
      = Cert.KernelIdeal.Hand.W11 (F := Ideal) m ρ c (Proc.devRef .tc Cert.KernelIdeal.main_v33) := by
  obtain ⟨hX, hW, hb, hLe, hlab⟩ := Cert.PreDecode.decode _ _ _ _ _ (hpre c)
  have hlabK : ∀ i, (Cert.KernelIdeal.Hand.klab m c i).toNat < 64 := fun i => hlab (ix1 i)
  have eX : Cert.ReferenceIdeal.Hand.aX m' c = Cert.KernelIdeal.Hand.kX m c :=
    congrArg (fun x : (⟨2, ![8192, 1024]⟩ : Shape).Idx → EReal => arr2 x) a0
  have eW : Cert.ReferenceIdeal.Hand.aW m' c = Cert.KernelIdeal.Hand.kW m c :=
    congrArg (fun x : (⟨2, ![256, 1024]⟩ : Shape).Idx → EReal => arr2 x) a1
  have eb : Cert.ReferenceIdeal.Hand.ab m' c = Cert.KernelIdeal.Hand.kb m c :=
    congrArg (fun x : (⟨1, ![256]⟩ : Shape).Idx → EReal => arr1 x) a2
  have eLe : Cert.ReferenceIdeal.Hand.aLe m' c = Cert.KernelIdeal.Hand.kLe m c :=
    congrArg (fun x : (⟨2, ![64, 256]⟩ : Shape).Idx → EReal => arr2 x) a3
  have eLab : Cert.ReferenceIdeal.Hand.alab m' c = Cert.KernelIdeal.Hand.klab m c :=
    congrArg (fun x : (⟨1, ![8192]⟩ : Shape).Idx → BitVec 32 => arr1 x) a4
  have hlabR : ∀ i, (Cert.ReferenceIdeal.Hand.alab m' c i).toNat < 64 := fun i => by rw [eLab]; exact hlabK i
  funext j
  obtain rfl := eq_ix0 j
  refine (Cert.ReferenceIdeal.Hand.ref_value m' c hlabR).trans ?_
  refine Eq.trans ?_ (Cert.KernelIdeal.Hand.host_value m ρ c hlabK).symm
  rw [eX, eW, eb, eLe, eLab]
  exact (Cert.Spec.resK_eq_resR _ _ _ _ _ (fun i k => hX (ix2 i k)) (fun e k => hW (ix2 e k)) (fun e => hb (ix1 e))
    (fun l e => hLe (ix2 l e)) hlabK).symm

theorem algebraic : Cert.algebraic_KernelIdeal_ReferenceIdeal := by
  intro m ρ m' ρ' hpre hagree
  refine ⟨fun c => Cert.KernelIdeal.Hand.W11 (F := Ideal) m ρ c (Proc.devRef .tc Cert.KernelIdeal.main_v33), ?_, ?_⟩
  · exact OrdCont.mono (θ_run Cert.KernelIdeal.defs _ _) (fun r h c =>
      ⟨h c _ (Cert.KernelIdeal.Hand.mem_uc Cert.KernelIdeal.main_v33 (by decide)),
       (h c _ (Cert.KernelIdeal.Hand.mem_uc Cert.KernelIdeal.main_arg0 (by decide))).trans (Cert.KernelIdeal.Hand.W11_main_arg0 m ρ c),
       (h c _ (Cert.KernelIdeal.Hand.mem_uc Cert.KernelIdeal.main_arg1 (by decide))).trans (Cert.KernelIdeal.Hand.W11_main_arg1 m ρ c),
       (h c _ (Cert.KernelIdeal.Hand.mem_uc Cert.KernelIdeal.main_arg2 (by decide))).trans (Cert.KernelIdeal.Hand.W11_main_arg2 m ρ c),
       (h c _ (Cert.KernelIdeal.Hand.mem_uc Cert.KernelIdeal.main_arg3 (by decide))).trans (Cert.KernelIdeal.Hand.W11_main_arg3 m ρ c),
       (h c _ (Cert.KernelIdeal.Hand.mem_uc Cert.KernelIdeal.main_arg4 (by decide))).trans (Cert.KernelIdeal.Hand.W11_main_arg4 m ρ c)⟩)
      (Cert.KernelIdeal.Hand.run_all (F := Ideal) m ρ)
  · refine OrdCont.mono (θ_run Cert.ReferenceIdeal.defs _ _) (fun r h c => ⟨(h c).1.trans ?_, (h c).2⟩)
      (Cert.ReferenceIdeal.ValueP.run (F := Ideal) m' ρ')
    exact result_eq m ρ m' hpre c (hagree c).1 (hagree c).2.1 (hagree c).2.2.1 (hagree c).2.2.2.1 (hagree c).2.2.2.2

end Cert.Proof.Claims

end
-- ==== Proof.lean ====
/-
  A contrastive loss over 8192 labelled samples and 64 label prototypes: half the mean inter-sample loss plus half
  the sum of the means of two sample-prototype losses, of unit-normalised affine images of the samples and
  unit-normalised prototypes. The kernel program sums tile by tile with running sums, the reference over whole
  arrays; on real inputs with labels in 0 … 63 the two return the same number, and each program runs to the end
  leaving its arguments as launched.
-/
import proofs.«400594_j19061064860124_1_alg».proof.Defs
import proofs.«400594_j19061064860124_1_alg».proof.Proof.KI.Claims
import proofs.«400594_j19061064860124_1_alg».proof.Proof.Gen.Kernel
import proofs.«400594_j19061064860124_1_alg».proof.Proof.Gen.KernelIdeal
import proofs.«400594_j19061064860124_1_alg».proof.Proof.Gen.ReferenceIdeal
import proofs.«400594_j19061064860124_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
